-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part5 {F : FTy → Type} [FloatOps F] (main_arg17 : IVec S2x1600000 32) (main_v78 : IVec S_ 1) (main_v82 : IVec S1600000 1) (main_v84 : IVec S1600000 32) (main_v85 : IVec S1600000 32) : IVec S_ 1 :=
  let main_v86 : IVec S1600000 1 := cmpi .slt main_v84 main_v85
  let main_v87 : IVec S1600000 1 := andi main_v82 main_v86
  let main_c_32 : IVec S_ 1 := constantI S_ 1 1#1
  let main_v88 : IVec S_ 1 := (fun x v => Host.reduce IntOp.andi x v reducesTo_S1600000_S_d0 h_S_) main_v87 main_c_32
  let main_v89 : IVec S_ 1 := andi main_v78 main_v88
  let main_v90 : IVec S1x1600000 32 := (extractStridedSlice S1x1600000 ![0, 0] · slices_S2x1600000_S1x1600000_0_0) main_arg17
  let main_v91 : IVec S1600000 32 := shapeCast S1600000 main_v90 shapeCasts_S1x1600000_S1600000
  let main_c_33 : IVec S_ 32 := constantI S_ 32 0#32
  let main_v92 : IVec S1600000 32 := broadcastInDim S1600000 ![] bcast_S_S1600000 main_c_33
  let main_v93 : IVec S1600000 1 := cmpi .sge main_v91 main_v92
  let main_v94 : IVec S1x1600000 32 := (extractStridedSlice S1x1600000 ![0, 0] · slices_S2x1600000_S1x1600000_0_0) main_arg17
  let main_v95 : IVec S1600000 32 := shapeCast S1600000 main_v94 shapeCasts_S1x1600000_S1600000
  let main_c_34 : IVec S_ 32 := constantI S_ 32 50000#32
  let main_v96 : IVec S1600000 32 := broadcastInDim S1600000 ![] bcast_S_S1600000 main_c_34
  let main_v97 : IVec S1600000 1 := cmpi .slt main_v95 main_v96
  let main_v98 : IVec S1600000 1 := andi main_v93 main_v97
  let main_c_35 : IVec S_ 1 := constantI S_ 1 1#1
  let main_v99 : IVec S_ 1 := (fun x v => Host.reduce IntOp.andi x v reducesTo_S1600000_S_d0 h_S_) main_v98 main_c_35
  let main_v100 : IVec S_ 1 := andi main_v89 main_v99
  main_v100

def fn_part4 {F : FTy → Type} [FloatOps F] (main_arg14 : FVec F S128x64 .f32) (main_arg15 : FVec F S64 .f32) (main_arg16 : IVec S2x1600000 32) (main_arg17 : IVec S2x1600000 32) (main_v63 : IVec S_ 1) (main_v67 : IVec S_ 1) : IVec S_ 1 :=
  let main_v68 : IVec S_ 1 := andi main_v63 main_v67
  let main_v69 : FVec F S128x64 .f32 := Host.absf main_arg14
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : IVec S1x1600000 32 := (extractStridedSlice S1x1600000 ![0, 0] · slices_S2x1600000_S1x1600000_0_0) main_arg16
  let main_v80 : IVec S1600000 32 := shapeCast S1600000 main_v79 shapeCasts_S1x1600000_S1600000
  let main_c_30 : IVec S_ 32 := constantI S_ 32 0#32
  let main_v81 : IVec S1600000 32 := broadcastInDim S1600000 ![] bcast_S_S1600000 main_c_30
  let main_v82 : IVec S1600000 1 := cmpi .sge main_v80 main_v81
  let main_v83 : IVec S1x1600000 32 := (extractStridedSlice S1x1600000 ![0, 0] · slices_S2x1600000_S1x1600000_0_0) main_arg16
  let main_v84 : IVec S1600000 32 := shapeCast S1600000 main_v83 shapeCasts_S1x1600000_S1600000
  let main_c_31 : IVec S_ 32 := constantI S_ 32 50000#32
  let main_v85 : IVec S1600000 32 := broadcastInDim S1600000 ![] bcast_S_S1600000 main_c_31
  fn_part5 (F := F) main_arg17 main_v78 main_v82 main_v84 main_v85

def fn_part3 {F : FTy → Type} [FloatOps F] (main_arg11 : FVec F S128x128 .f32) (main_arg12 : FVec F S128x128 .f32) (main_arg13 : FVec F S128 .f32) (main_arg14 : FVec F S128x64 .f32) (main_arg15 : FVec F S64 .f32) (main_arg16 : IVec S2x1600000 32) (main_arg17 : IVec S2x1600000 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_v63 main_v67

def fn_part2 {F : FTy → Type} [FloatOps F] (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x64 .f32) (main_arg15 : FVec F S64 .f32) (main_arg16 : IVec S2x1600000 32) (main_arg17 : IVec S2x1600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x64 .f32) (main_arg15 : FVec F S64 .f32) (main_arg16 : IVec S2x1600000 32) (main_arg17 : IVec S2x1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S50000x128 .f32) (main_arg1 : FVec F S50000x128 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x64 .f32) (main_arg15 : FVec F S64 .f32) (main_arg16 : IVec S2x1600000 32) (main_arg17 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S800000 : Shape := ⟨1, ![800000]⟩
abbrev S_ : Shape := ⟨0, ![]⟩
abbrev S768 : Shape := ⟨1, ![768]⟩
abbrev S800768 : Shape := ⟨1, ![800768]⟩
abbrev S1601536 : Shape := ⟨1, ![1601536]⟩
abbrev S2x50000x128 : Shape := ⟨3, ![2, 50000, 128]⟩
abbrev S2048 : Shape := ⟨1, ![2048]⟩
abbrev S1x50000x128 : Shape := ⟨3, ![1, 50000, 128]⟩
abbrev S1x2048 : Shape := ⟨2, ![1, 2048]⟩
abbrev S1000x1 : Shape := ⟨2, ![1000, 1]⟩
abbrev S1000x2048 : Shape := ⟨2, ![1000, 2048]⟩
abbrev S1000 : Shape := ⟨1, ![1000]⟩
abbrev S1000x128 : Shape := ⟨2, ![1000, 128]⟩
abbrev S1x1000x128 : Shape := ⟨3, ![1, 1000, 128]⟩
abbrev S1601536x1 : Shape := ⟨2, ![1601536, 1]⟩
abbrev S1 : Shape := ⟨1, ![1]⟩
abbrev S1x1 : Shape := ⟨2, ![1, 1]⟩
abbrev S1601536x128 : Shape := ⟨2, ![1601536, 128]⟩
abbrev S2048x128 : Shape := ⟨2, ![2048, 128]⟩
abbrev S1x128 : Shape := ⟨2, ![1, 128]⟩
abbrev S2x5000x128 : Shape := ⟨3, ![2, 5000, 128]⟩
abbrev S5000x128 : Shape := ⟨2, ![5000, 128]⟩
abbrev S1x5000x128 : Shape := ⟨3, ![1, 5000, 128]⟩
abbrev S5000x1 : Shape := ⟨2, ![5000, 1]⟩
abbrev S50000x64 : Shape := ⟨2, ![50000, 64]⟩

abbrev nBuf : Space → Nat
  | .hbm => 149
  | .vmem => 61
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x64, .f32⟩
  | 15 => ⟨S64, .f32⟩
  | 16 => ⟨S2x1600000, .i32⟩
  | 17 => ⟨S2x1600000, .i32⟩
  | 18 => ⟨S1x1600000, .i32⟩
  | 19 => ⟨S1600000, .i32⟩
  | 20 => ⟨S1x1600000, .i32⟩
  | 21 => ⟨S1600000, .i32⟩
  | 22 => ⟨S1x1600000, .i32⟩
  | 23 => ⟨S1600000, .i32⟩
  | 24 => ⟨S1x1600000, .i32⟩
  | 25 => ⟨S1600000, .i32⟩
  | 26 => ⟨S800000, .i32⟩
  | 27 => ⟨S800000, .i32⟩
  | 28 => ⟨S800000, .i32⟩
  | 29 => ⟨S800000, .i32⟩
  | 30 => ⟨S_, .i32⟩
  | 31 => ⟨S768, .i32⟩
  | 32 => ⟨S_, .i32⟩
  | 33 => ⟨S768, .i32⟩
  | 34 => ⟨S800768, .i32⟩
  | 35 => ⟨S800768, .i32⟩
  | 36 => ⟨S800768, .i32⟩
  | 37 => ⟨S800768, .i32⟩
  | 38 => ⟨S1601536, .i32⟩
  | 39 => ⟨S1601536, .i32⟩
  | 40 => ⟨S800000, .i32⟩
  | 41 => ⟨S800000, .i32⟩
  | 42 => ⟨S800000, .i32⟩
  | 43 => ⟨S800000, .i32⟩
  | 44 => ⟨S_, .i32⟩
  | 45 => ⟨S768, .i32⟩
  | 46 => ⟨S_, .i32⟩
  | 47 => ⟨S768, .i32⟩
  | 48 => ⟨S800768, .i32⟩
  | 49 => ⟨S800768, .i32⟩
  | 50 => ⟨S800768, .i32⟩
  | 51 => ⟨S800768, .i32⟩
  | 52 => ⟨S1601536, .i32⟩
  | 53 => ⟨S1601536, .i32⟩
  | 54 => ⟨S2x50000x128, .f32⟩
  | 55 => ⟨S2x50000x128, .f32⟩
  | 56 => ⟨S_, .i32⟩
  | 57 => ⟨S1601536, .i32⟩
  | 58 => ⟨S1601536, .i1⟩
  | 59 => ⟨S_, .i32⟩
  | 60 => ⟨S1601536, .i32⟩
  | 61 => ⟨S1601536, .i32⟩
  | 62 => ⟨S1601536, .i32⟩
  | 63 => ⟨S1601536x1, .i32⟩
  | 64 => ⟨S1, .i32⟩
  | 65 => ⟨S_, .i32⟩
  | 66 => ⟨S1601536x1, .i32⟩
  | 67 => ⟨S1601536x1, .i1⟩
  | 68 => ⟨S1x1, .i32⟩
  | 69 => ⟨S1601536x1, .i32⟩
  | 70 => ⟨S1601536x1, .i1⟩
  | 71 => ⟨S1601536x1, .i1⟩
  | 72 => ⟨S_, .i1⟩
  | 73 => ⟨S1601536, .i1⟩
  | 74 => ⟨S1601536x128, .f32⟩
  | 75 => ⟨S1601536x128, .i1⟩
  | 76 => ⟨S_, .f32⟩
  | 77 => ⟨S1601536x128, .f32⟩
  | 78 => ⟨S1601536x128, .f32⟩
  | 79 => ⟨S1601536x128, .bf16⟩
  | 80 => ⟨S2x50000x128, .f32⟩
  | 81 => ⟨S1x128, .f32⟩
  | 82 => ⟨S50000x128, .f32⟩
  | 83 => ⟨S_, .i32⟩
  | 84 => ⟨S1601536, .i32⟩
  | 85 => ⟨S1601536, .i1⟩
  | 86 => ⟨S_, .i32⟩
  | 87 => ⟨S1601536, .i32⟩
  | 88 => ⟨S1601536, .i32⟩
  | 89 => ⟨S1601536, .i32⟩
  | 90 => ⟨S1601536x1, .i32⟩
  | 91 => ⟨S1, .i32⟩
  | 92 => ⟨S_, .i32⟩
  | 93 => ⟨S1601536x1, .i32⟩
  | 94 => ⟨S1601536x1, .i1⟩
  | 95 => ⟨S1x1, .i32⟩
  | 96 => ⟨S1601536x1, .i32⟩
  | 97 => ⟨S1601536x1, .i1⟩
  | 98 => ⟨S1601536x1, .i1⟩
  | 99 => ⟨S_, .i1⟩
  | 100 => ⟨S1601536, .i1⟩
  | 101 => ⟨S1601536x128, .f32⟩
  | 102 => ⟨S1601536x128, .i1⟩
  | 103 => ⟨S_, .f32⟩
  | 104 => ⟨S1601536x128, .f32⟩
  | 105 => ⟨S1601536x128, .f32⟩
  | 106 => ⟨S1601536x128, .bf16⟩
  | 107 => ⟨S2x50000x128, .f32⟩
  | 108 => ⟨S1x128, .f32⟩
  | 109 => ⟨S50000x128, .f32⟩
  | 110 => ⟨S_, .i32⟩
  | 111 => ⟨S1601536, .i32⟩
  | 112 => ⟨S1601536, .i1⟩
  | 113 => ⟨S_, .i32⟩
  | 114 => ⟨S1601536, .i32⟩
  | 115 => ⟨S1601536, .i32⟩
  | 116 => ⟨S1601536, .i32⟩
  | 117 => ⟨S1601536x1, .i32⟩
  | 118 => ⟨S1, .i32⟩
  | 119 => ⟨S_, .i32⟩
  | 120 => ⟨S1601536x1, .i32⟩
  | 121 => ⟨S1601536x1, .i1⟩
  | 122 => ⟨S1x1, .i32⟩
  | 123 => ⟨S1601536x1, .i32⟩
  | 124 => ⟨S1601536x1, .i1⟩
  | 125 => ⟨S1601536x1, .i1⟩
  | 126 => ⟨S_, .i1⟩
  | 127 => ⟨S1601536, .i1⟩
  | _ => ⟨S50000x128, .f32⟩

abbrev hbmTy0_1 (i : Nat) : BufTy := match i % 128 with
  | 0 => ⟨S1601536x128, .f32⟩
  | 1 => ⟨S1601536x128, .i1⟩
  | 2 => ⟨S_, .f32⟩
  | 3 => ⟨S1601536x128, .f32⟩
  | 4 => ⟨S1601536x128, .f32⟩
  | 5 => ⟨S1601536x128, .bf16⟩
  | 6 => ⟨S2x50000x128, .f32⟩
  | 7 => ⟨S1x128, .f32⟩
  | 8 => ⟨S_, .f32⟩
  | 9 => ⟨S128x128, .f32⟩
  | 10 => ⟨S_, .i32⟩
  | 11 => ⟨S1, .i32⟩
  | 12 => ⟨S128x128, .f32⟩
  | 13 => ⟨S_, .f32⟩
  | 14 => ⟨S128, .f32⟩
  | 15 => ⟨S_, .i32⟩
  | 16 => ⟨S1, .i32⟩
  | 17 => ⟨S128, .f32⟩
  | 18 => ⟨S1x128, .f32⟩
  | 19 => ⟨S50000x128, .f32⟩
  | 20 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2048, .i32⟩
  | .local _ .vmem, ⟨1, _⟩ => ⟨S2048, .i32⟩
  | .local _ .vmem, ⟨2, _⟩ => ⟨S1x50000x128, .f32⟩
  | .local _ .vmem, ⟨3, _⟩ => ⟨S1x50000x128, .f32⟩
  | .local _ .vmem, ⟨4, _⟩ => ⟨S2048, .i32⟩
  | .local _ .vmem, ⟨5, _⟩ => ⟨S2048, .i32⟩
  | .local _ .vmem, ⟨6, _⟩ => ⟨S1x50000x128, .f32⟩
  | .local _ .vmem, ⟨7, _⟩ => ⟨S1x50000x128, .f32⟩
  | .local _ .vmem, ⟨8, _⟩ => ⟨S2048x128, .bf16⟩
  | .local _ .vmem, ⟨9, _⟩ => ⟨S2048x128, .bf16⟩
  | .local _ .vmem, ⟨10, _⟩ => ⟨S2048, .i32⟩
  | .local _ .vmem, ⟨11, _⟩ => ⟨S2048, .i32⟩
  | .local _ .vmem, ⟨12, _⟩ => ⟨S1x50000x128, .f32⟩
  | .local _ .vmem, ⟨13, _⟩ => ⟨S1x50000x128, .f32⟩
  | .local _ .vmem, ⟨14, _⟩ => ⟨S2x5000x128, .f32⟩
  | .local _ .vmem, ⟨15, _⟩ => ⟨S2x5000x128, .f32⟩
  | .local _ .vmem, ⟨16, _⟩ => ⟨S2x5000x128, .f32⟩
  | .local _ .vmem, ⟨17, _⟩ => ⟨S2x5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S2048x128, .bf16⟩
  | .local _ .vmem, ⟨26, _⟩ => ⟨S2048x128, .bf16⟩
  | .local _ .vmem, ⟨27, _⟩ => ⟨S2048, .i32⟩
  | .local _ .vmem, ⟨28, _⟩ => ⟨S2048, .i32⟩
  | .local _ .vmem, ⟨29, _⟩ => ⟨S1x50000x128, .f32⟩
  | .local _ .vmem, ⟨30, _⟩ => ⟨S1x50000x128, .f32⟩
  | .local _ .vmem, ⟨31, _⟩ => ⟨S2x5000x128, .f32⟩
  | .local _ .vmem, ⟨32, _⟩ => ⟨S2x5000x128, .f32⟩
  | .local _ .vmem, ⟨33, _⟩ => ⟨S2x5000x128, .f32⟩
  | .local _ .vmem, ⟨34, _⟩ => ⟨S2x5000x128, .f32⟩
  | .local _ .vmem, ⟨35, _⟩ => ⟨S5000x128, .f32⟩
  | .local _ .vmem, ⟨36, _⟩ => ⟨S5000x128, .f32⟩
  | .local _ .vmem, ⟨37, _⟩ => ⟨S128x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S2048x128, .bf16⟩
  | .local _ .vmem, ⟨43, _⟩ => ⟨S2048x128, .bf16⟩
  | .local _ .vmem, ⟨44, _⟩ => ⟨S2048, .i32⟩
  | .local _ .vmem, ⟨45, _⟩ => ⟨S2048, .i32⟩
  | .local _ .vmem, ⟨46, _⟩ => ⟨S1x50000x128, .f32⟩
  | .local _ .vmem, ⟨47, _⟩ => ⟨S1x50000x128, .f32⟩
  | .local _ .vmem, ⟨48, _⟩ => ⟨S2x5000x128, .f32⟩
  | .local _ .vmem, ⟨49, _⟩ => ⟨S2x5000x128, .f32⟩
  | .local _ .vmem, ⟨50, _⟩ => ⟨S2x5000x128, .f32⟩
  | .local _ .vmem, ⟨51, _⟩ => ⟨S2x5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S128x128, .f32⟩
  | .local _ .vmem, ⟨56, _⟩ => ⟨S1x128, .f32⟩
  | .local _ .vmem, ⟨57, _⟩ => ⟨S128x128, .f32⟩
  | .local _ .vmem, ⟨58, _⟩ => ⟨S1x128, .f32⟩
  | .local _ .vmem, ⟨59, _⟩ => ⟨S5000x128, .f32⟩
  | .local _ .vmem, ⟨60, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_1 : Ref sig .tc := ⟨.hbm, 44, rfl⟩
abbrev main_v24 : Ref sig .tc := ⟨.hbm, 45, rfl⟩
abbrev main_c_2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call0_c : Ref sig .tc := ⟨.hbm, 56, rfl⟩
abbrev main_call0_v0 : Ref sig .tc := ⟨.hbm, 57, rfl⟩
abbrev main_call0_v1 : Ref sig .tc := ⟨.hbm, 58, rfl⟩
abbrev main_call0_c_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_c_1 : Ref sig .tc := ⟨.hbm, 64, rfl⟩
abbrev main_call0_c_2 : Ref sig .tc := ⟨.hbm, 65, rfl⟩
abbrev main_call0_v6 : Ref sig .tc := ⟨.hbm, 66, rfl⟩
abbrev main_call0_v7 : Ref sig .tc := ⟨.hbm, 67, rfl⟩
abbrev main_call0_v8 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_c_3 : Ref sig .tc := ⟨.hbm, 72, rfl⟩
abbrev main_call0_v12 : Ref sig .tc := ⟨.hbm, 73, rfl⟩
abbrev main_call0_v13 : Ref sig .tc := ⟨.hbm, 74, rfl⟩
abbrev main_call0_v14 : Ref sig .tc := ⟨.hbm, 75, rfl⟩
abbrev main_call0_cst : Ref sig .tc := ⟨.hbm, 76, rfl⟩
abbrev main_call0_v15 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_call1_c : Ref sig .tc := ⟨.hbm, 83, rfl⟩
abbrev main_call1_v0 : Ref sig .tc := ⟨.hbm, 84, rfl⟩
abbrev main_call1_v1 : Ref sig .tc := ⟨.hbm, 85, rfl⟩
abbrev main_call1_c_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_c_1 : Ref sig .tc := ⟨.hbm, 91, rfl⟩
abbrev main_call1_c_2 : Ref sig .tc := ⟨.hbm, 92, rfl⟩
abbrev main_call1_v6 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_c_3 : Ref sig .tc := ⟨.hbm, 99, rfl⟩
abbrev main_call1_v12 : Ref sig .tc := ⟨.hbm, 100, rfl⟩
abbrev main_call1_v13 : Ref sig .tc := ⟨.hbm, 101, rfl⟩
abbrev main_call1_v14 : Ref sig .tc := ⟨.hbm, 102, rfl⟩
abbrev main_call1_cst : Ref sig .tc := ⟨.hbm, 103, rfl⟩
abbrev main_call1_v15 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_call2_c : Ref sig .tc := ⟨.hbm, 110, rfl⟩
abbrev main_call2_v0 : Ref sig .tc := ⟨.hbm, 111, rfl⟩
abbrev main_call2_v1 : Ref sig .tc := ⟨.hbm, 112, rfl⟩
abbrev main_call2_c_0 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_c_1 : Ref sig .tc := ⟨.hbm, 118, rfl⟩
abbrev main_call2_c_2 : Ref sig .tc := ⟨.hbm, 119, rfl⟩
abbrev main_call2_v6 : Ref sig .tc := ⟨.hbm, 120, rfl⟩
abbrev main_call2_v7 : Ref sig .tc := ⟨.hbm, 121, rfl⟩
abbrev main_call2_v8 : Ref sig .tc := ⟨.hbm, 122, rfl⟩
abbrev main_call2_v9 : Ref sig .tc := ⟨.hbm, 123, rfl⟩
abbrev main_call2_v10 : Ref sig .tc := ⟨.hbm, 124, rfl⟩
abbrev main_call2_v11 : Ref sig .tc := ⟨.hbm, 125, rfl⟩
abbrev main_call2_c_3 : Ref sig .tc := ⟨.hbm, 126, rfl⟩
abbrev main_call2_v12 : Ref sig .tc := ⟨.hbm, 127, rfl⟩
abbrev main_call2_v13 : Ref sig .tc := ⟨.hbm, 128, rfl⟩
abbrev main_call2_v14 : Ref sig .tc := ⟨.hbm, 129, rfl⟩
abbrev main_call2_cst : Ref sig .tc := ⟨.hbm, 130, rfl⟩
abbrev main_call2_v15 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_cst : Ref sig .tc := ⟨.hbm, 136, rfl⟩
abbrev main_v48 : Ref sig .tc := ⟨.hbm, 137, rfl⟩
abbrev main_c_3 : Ref sig .tc := ⟨.hbm, 138, rfl⟩
abbrev main_v49 : Ref sig .tc := ⟨.hbm, 139, rfl⟩
abbrev main_v50 : Ref sig .tc := ⟨.hbm, 140, rfl⟩
abbrev main_cst_4 : Ref sig .tc := ⟨.hbm, 141, rfl⟩
abbrev main_v51 : Ref sig .tc := ⟨.hbm, 142, rfl⟩
abbrev main_c_5 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg6_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc7_stg2_0 : Ref sig .tc := ⟨.vmem, 52, rfl⟩
abbrev cc7_stg2_1 : Ref sig .tc := ⟨.vmem, 53, rfl⟩
abbrev cc7_stg3_0 : Ref sig .tc := ⟨.vmem, 54, rfl⟩
abbrev cc7_stg4_0 : Ref sig .tc := ⟨.vmem, 55, rfl⟩
abbrev cc7_stg5_0 : Ref sig .tc := ⟨.vmem, 56, rfl⟩
abbrev cc7_stg6_0 : Ref sig .tc := ⟨.vmem, 57, rfl⟩
abbrev cc7_stg7_0 : Ref sig .tc := ⟨.vmem, 58, rfl⟩
abbrev cc7_stg8_0 : Ref sig .tc := ⟨.vmem, 59, rfl⟩
abbrev cc7_stg8_1 : Ref sig .tc := ⟨.vmem, 60, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem0_1 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem6_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc7_sem0_0 : DmaSem sig := 48
abbrev cc7_sem0_1 : DmaSem sig := 49
abbrev cc7_sem1_0 : DmaSem sig := 50
abbrev cc7_sem1_1 : DmaSem sig := 51
abbrev cc7_sem2_0 : DmaSem sig := 52
abbrev cc7_sem2_1 : DmaSem sig := 53
abbrev cc7_sem3_0 : DmaSem sig := 54
abbrev cc7_sem4_0 : DmaSem sig := 55
abbrev cc7_sem5_0 : DmaSem sig := 56
abbrev cc7_sem6_0 : DmaSem sig := 57
abbrev cc7_sem7_0 : DmaSem sig := 58
abbrev cc7_sem8_0 : DmaSem sig := 59
abbrev cc7_sem8_1 : DmaSem sig := 60

abbrev nD : Nat := 1
abbrev τ : Topo := Topo.v7x

variable {F : FTy → Type} [FloatOps F]

abbrev grid0 : Pipeline.Grid := ⟨2, ![2, 391], ![false, false]⟩

@[reducible] def k0_t1_loop : Scf.Loop 32 :=
  let c0_i32_1 : BitVec 32 := 0#32
  let c50_i32 : BitVec 32 := 50#32
  let v6 : BitVec 32 := Scalar.addi c0_i32_1 c50_i32
  let c1_i32 : BitVec 32 := 1#32
  ⟨c0_i32_1, v6, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg4 : BitVec 32 := Scf.iv c0_i32_1 c1_i32 k0_t1
  let c1_i32_3 : BitVec 32 := 1#32
  let v7 : BitVec 32 := Scalar.muli arg4 c1_i32_3
  let v8 : BitVec 32 := Scalar.addi c0_i32_4 v7
  let c1000_i32 : BitVec 32 := 1000#32
  let v9 : BitVec 32 := Scalar.muli v8 c1000_i32
  v9
def k0_off1 (k0_t1 : Fin k0_t1_loop.trips) : Fin 3 → Nat :=
  let c0_5 : Index := 0#32
  let c0_i32_4 : BitVec 32 := 0#32
  let c0_i32_1 : BitVec 32 := 0#32
  let c1_i32 : BitVec 32 := 1#32
  let arg4 : BitVec 32 := Scf.iv c0_i32_1 c1_i32 k0_t1
  let c1_i32_3 : BitVec 32 := 1#32
  let v7 : BitVec 32 := Scalar.muli arg4 c1_i32_3
  let v8 : BitVec 32 := Scalar.addi c0_i32_4 v7
  let c1000_i32 : BitVec 32 := 1000#32
  let v9 : BitVec 32 := Scalar.muli v8 c1000_i32
  let v10 : BitVec 32 := v9
  let v23 : Index := Scalar.indexCast v10
  let c0_6 : Index := 0#32
  ![0, v23.toNat, 0]
def cc0_transform_0 (i : grid0.Coords) : Fin 1 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  ![v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x50000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![2, 391], ![false, false]⟩

@[reducible] def k1_t1_loop : Scf.Loop 32 :=
  let c0_i32_1 : BitVec 32 := 0#32
  let c50_i32 : BitVec 32 := 50#32
  let v6 : BitVec 32 := Scalar.addi c0_i32_1 c50_i32
  let c1_i32 : BitVec 32 := 1#32
  ⟨c0_i32_1, v6, c1_i32⟩
def k1_mult1 (k1_t1 : Fin k1_t1_loop.trips) : BitVec 32 :=
  let c0_i32_4 : BitVec 32 := 0#32
  let c0_i32_1 : BitVec 32 := 0#32
  let c1_i32 : BitVec 32 := 1#32
  let arg4 : BitVec 32 := Scf.iv c0_i32_1 c1_i32 k1_t1
  let c1_i32_3 : BitVec 32 := 1#32
  let v7 : BitVec 32 := Scalar.muli arg4 c1_i32_3
  let v8 : BitVec 32 := Scalar.addi c0_i32_4 v7
  let c1000_i32 : BitVec 32 := 1000#32
  let v9 : BitVec 32 := Scalar.muli v8 c1000_i32
  v9
def k1_off1 (k1_t1 : Fin k1_t1_loop.trips) : Fin 3 → Nat :=
  let c0_5 : Index := 0#32
  let c0_i32_4 : BitVec 32 := 0#32
  let c0_i32_1 : BitVec 32 := 0#32
  let c1_i32 : BitVec 32 := 1#32
  let arg4 : BitVec 32 := Scf.iv c0_i32_1 c1_i32 k1_t1
  let c1_i32_3 : BitVec 32 := 1#32
  let v7 : BitVec 32 := Scalar.muli arg4 c1_i32_3
  let v8 : BitVec 32 := Scalar.addi c0_i32_4 v7
  let c1000_i32 : BitVec 32 := 1000#32
  let v9 : BitVec 32 := Scalar.muli v8 c1000_i32
  let v10 : BitVec 32 := v9
  let v23 : Index := Scalar.indexCast v10
  let c0_6 : Index := 0#32
  ![0, v23.toNat, 0]
def cc1_transform_0 (i : grid1.Coords) : Fin 1 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  ![v1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x50000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := ⟨2, ![2, 391], ![false, false]⟩

@[reducible] def k2_t1_loop : Scf.Loop 32 :=
  let c0_i32_3 : BitVec 32 := 0#32
  let c50_i32 : BitVec 32 := 50#32
  let v8 : BitVec 32 := Scalar.addi c0_i32_3 c50_i32
  let c1_i32 : BitVec 32 := 1#32
  ⟨c0_i32_3, v8, c1_i32⟩
def k2_mult1 (k2_t1 : Fin k2_t1_loop.trips) : BitVec 32 :=
  let c0_i32_6 : BitVec 32 := 0#32
  let c0_i32_3 : BitVec 32 := 0#32
  let c1_i32 : BitVec 32 := 1#32
  let arg5 : BitVec 32 := Scf.iv c0_i32_3 c1_i32 k2_t1
  let c1_i32_5 : BitVec 32 := 1#32
  let v9 : BitVec 32 := Scalar.muli arg5 c1_i32_5
  let v10 : BitVec 32 := Scalar.addi c0_i32_6 v9
  let c1000_i32 : BitVec 32 := 1000#32
  let v11 : BitVec 32 := Scalar.muli v10 c1000_i32
  v11
def k2_off1 (k2_t1 : Fin k2_t1_loop.trips) : Fin 3 → Nat :=
  let c0_7 : Index := 0#32
  let c0_i32_6 : BitVec 32 := 0#32
  let c0_i32_3 : BitVec 32 := 0#32
  let c1_i32 : BitVec 32 := 1#32
  let arg5 : BitVec 32 := Scf.iv c0_i32_3 c1_i32 k2_t1
  let c1_i32_5 : BitVec 32 := 1#32
  let v9 : BitVec 32 := Scalar.muli arg5 c1_i32_5
  let v10 : BitVec 32 := Scalar.addi c0_i32_6 v9
  let c1000_i32 : BitVec 32 := 1000#32
  let v11 : BitVec 32 := Scalar.muli v10 c1000_i32
  let v12 : BitVec 32 := v11
  let v23 : Index := Scalar.indexCast v12
  let c0_8 : Index := 0#32
  ![0, v23.toNat, 0]
def cc2_transform_0 (i : grid2.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 1 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  ![v1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x50000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![10], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2x5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨2, ![2, 391], ![false, false]⟩

@[reducible] def k4_t1_loop : Scf.Loop 32 :=
  let c0_i32_3 : BitVec 32 := 0#32
  let c50_i32 : BitVec 32 := 50#32
  let v8 : BitVec 32 := Scalar.addi c0_i32_3 c50_i32
  let c1_i32 : BitVec 32 := 1#32
  ⟨c0_i32_3, v8, c1_i32⟩
def k4_mult1 (k4_t1 : Fin k4_t1_loop.trips) : BitVec 32 :=
  let c0_i32_6 : BitVec 32 := 0#32
  let c0_i32_3 : BitVec 32 := 0#32
  let c1_i32 : BitVec 32 := 1#32
  let arg5 : BitVec 32 := Scf.iv c0_i32_3 c1_i32 k4_t1
  let c1_i32_5 : BitVec 32 := 1#32
  let v9 : BitVec 32 := Scalar.muli arg5 c1_i32_5
  let v10 : BitVec 32 := Scalar.addi c0_i32_6 v9
  let c1000_i32 : BitVec 32 := 1000#32
  let v11 : BitVec 32 := Scalar.muli v10 c1000_i32
  v11
def k4_off1 (k4_t1 : Fin k4_t1_loop.trips) : Fin 3 → Nat :=
  let c0_7 : Index := 0#32
  let c0_i32_6 : BitVec 32 := 0#32
  let c0_i32_3 : BitVec 32 := 0#32
  let c1_i32 : BitVec 32 := 1#32
  let arg5 : BitVec 32 := Scf.iv c0_i32_3 c1_i32 k4_t1
  let c1_i32_5 : BitVec 32 := 1#32
  let v9 : BitVec 32 := Scalar.muli arg5 c1_i32_5
  let v10 : BitVec 32 := Scalar.addi c0_i32_6 v9
  let c1000_i32 : BitVec 32 := 1000#32
  let v11 : BitVec 32 := Scalar.muli v10 c1000_i32
  let v12 : BitVec 32 := v11
  let v23 : Index := Scalar.indexCast v12
  let c0_8 : Index := 0#32
  ![0, v23.toNat, 0]
def cc4_transform_0 (i : grid4.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 1 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  ![v1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2048x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x50000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![10], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2x5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2x5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨2, ![2, 391], ![false, false]⟩

@[reducible] def k6_t1_loop : Scf.Loop 32 :=
  let c0_i32_3 : BitVec 32 := 0#32
  let c50_i32 : BitVec 32 := 50#32
  let v8 : BitVec 32 := Scalar.addi c0_i32_3 c50_i32
  let c1_i32 : BitVec 32 := 1#32
  ⟨c0_i32_3, v8, c1_i32⟩
def k6_mult1 (k6_t1 : Fin k6_t1_loop.trips) : BitVec 32 :=
  let c0_i32_6 : BitVec 32 := 0#32
  let c0_i32_3 : BitVec 32 := 0#32
  let c1_i32 : BitVec 32 := 1#32
  let arg5 : BitVec 32 := Scf.iv c0_i32_3 c1_i32 k6_t1
  let c1_i32_5 : BitVec 32 := 1#32
  let v9 : BitVec 32 := Scalar.muli arg5 c1_i32_5
  let v10 : BitVec 32 := Scalar.addi c0_i32_6 v9
  let c1000_i32 : BitVec 32 := 1000#32
  let v11 : BitVec 32 := Scalar.muli v10 c1000_i32
  v11
def k6_off1 (k6_t1 : Fin k6_t1_loop.trips) : Fin 3 → Nat :=
  let c0_7 : Index := 0#32
  let c0_i32_6 : BitVec 32 := 0#32
  let c0_i32_3 : BitVec 32 := 0#32
  let c1_i32 : BitVec 32 := 1#32
  let arg5 : BitVec 32 := Scf.iv c0_i32_3 c1_i32 k6_t1
  let c1_i32_5 : BitVec 32 := 1#32
  let v9 : BitVec 32 := Scalar.muli arg5 c1_i32_5
  let v10 : BitVec 32 := Scalar.addi c0_i32_6 v9
  let c1000_i32 : BitVec 32 := 1000#32
  let v11 : BitVec 32 := Scalar.muli v10 c1000_i32
  let v12 : BitVec 32 := v11
  let v23 : Index := Scalar.indexCast v12
  let c0_8 : Index := 0#32
  ![0, v23.toNat, 0]
def cc6_transform_0 (i : grid6.Coords) : Fin 2 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  let c0_i32_0 : BitVec 32 := 0#32
  ![v1.toNat, c0_i32.toNat]

def cc6_transform_1 (i : grid6.Coords) : Fin 1 → Nat :=
  let arg0 : BitVec 32 := BitVec.ofNat 32 (i 0).val
  let arg1 : BitVec 32 := BitVec.ofNat 32 (i 1).val
  let c391_i32 : BitVec 32 := 391#32
  let v0 : BitVec 32 := Scalar.muli arg0 c391_i32
  let v1 : BitVec 32 := Scalar.addi v0 arg1
  let c0_i32 : BitVec 32 := 0#32
  ![v1.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S2048x128 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2048 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x50000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev grid7 : Pipeline.Grid := ⟨1, ![10], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_1 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2x5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2x5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S128x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S1600000_S800000_0 : S1600000.Slices ![0] S800000
  slices_S1600000_S800000_800000 : S1600000.Slices ![800000] S800000
  bcast_S_S768 : S_.BroadcastsInDim S768 (![] : Fin 0 → Fin S768.rank)
  concatenates_S800000_S768_S800768_d0 : Shape.Concatenates [S800000, S768] S800768 0
  concatenates_S800768_S800768_S1601536_d0 : Shape.Concatenates [S800768, S800768] S1601536 0
  inb_S1x50000x128_S1x50000x128_0_0_0 : ∀ a, (![0, 0, 0] : Fin 3 → Nat) a + S1x50000x128.size a ≤ S1x50000x128.size a
  h_S1x50000x128 : 0 < S1x50000x128.numel
  shapeCasts_S1x50000x128_S50000x128 : S1x50000x128.ShapeCasts S50000x128
  shapeCasts_S50000x128_S1x50000x128 : S50000x128.ShapeCasts S1x50000x128
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  iota_S1000x1_d0_w32 : S1000x1.Iotas .tc 32 [0]
  broadcasts_S1x2048_S1000x2048 : S1x2048.Broadcasts S1000x2048
  broadcasts_S1000x1_S1000x2048 : S1000x1.Broadcasts S1000x2048
  natLt_1_32 : 1 < 32
  reduces_S1000x2048_S1000 : S1000x2048.Reduces [1] S1000
  shapeCasts_S1000_S1000x1 : S1000.ShapeCasts S1000x1
  shapeCasts_S1000x1_S1000x1 : S1000x1.ShapeCasts S1000x1
  broadcasts_S1000x1_S1000x128 : S1000x1.Broadcasts S1000x128
  h_S1x1000x128 : 0 < S1x1000x128.numel
  shapeCasts_S1x1000x128_S1000x128 : S1x1000x128.ShapeCasts S1000x128
  shapeCasts_S1000x128_S1x1000x128 : S1000x128.ShapeCasts S1x1000x128
  bcast_S_S1601536 : S_.BroadcastsInDim S1601536 (![] : Fin 0 → Fin S1601536.rank)
  bcast_S1601536_S1601536x1_0 : S1601536.BroadcastsInDim S1601536x1 (![0] : Fin 1 → Fin S1601536x1.rank)
  bcast_S_S1601536x1 : S_.BroadcastsInDim S1601536x1 (![] : Fin 0 → Fin S1601536x1.rank)
  bcast_S1_S1x1_1 : S1.BroadcastsInDim S1x1 (![1] : Fin 1 → Fin S1x1.rank)
  bcast_S1x1_S1601536x1_0_1 : S1x1.BroadcastsInDim S1601536x1 (![0, 1] : Fin 2 → Fin S1601536x1.rank)
  reducesTo_S1601536x1_S1601536_d1 : S1601536x1.ReducesTo [1] S1601536
  h_S_ : 0 < S_.numel
  bcast_S1601536_S1601536x128_0 : S1601536.BroadcastsInDim S1601536x128 (![0] : Fin 1 → Fin S1601536x128.rank)
  bcast_S_S1601536x128 : S_.BroadcastsInDim S1601536x128 (![] : Fin 0 → Fin S1601536x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S128_S1x128 : S128.ShapeCasts S1x128
  inb_S2x5000x128_S1x5000x128_0_0_0 : ∀ a, (![0, 0, 0] : Fin 3 → Nat) a + S1x5000x128.size a ≤ S2x5000x128.size a
  h_S1x5000x128 : 0 < S1x5000x128.numel
  shapeCasts_S1x5000x128_S5000x128 : S1x5000x128.ShapeCasts S5000x128
  inb_S2x5000x128_S1x5000x128_1_0_0 : ∀ a, (![1, 0, 0] : Fin 3 → Nat) a + S1x5000x128.size a ≤ S2x5000x128.size a
  slices_S5000x128_o0_0_S5000x1 : S5000x128.Slices ![0, 0] S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  shapeCasts_S5000x128_S5000x128 : S5000x128.ShapeCasts S5000x128
  shapeCasts_S128x128_S128x128 : S128x128.ShapeCasts S128x128
  slices_S50000x128_S50000x64_0_0 : S50000x128.Slices ![0, 0] S50000x64
  gather_S50000x128_S1601536x1_S1601536x128_1_0_n_n_0_1_1128_wf : GatherDims.WF S50000x128 S1601536x1 S1601536x128 [1] [0] [] [0] [] 1 ![1, 128]
  dot_S1000x2048_S2048x128_S1000x128_1_0_0_1_n_n_wf : DotDims.WF S1000x2048 S2048x128 S1000x128 [1] [0] [0] [1] [] []
  dot_S5000x128_S128x128_S5000x128_1_0_0_1_n_n_wf : DotDims.WF S5000x128 S128x128 S5000x128 [1] [0] [0] [1] [] []
  scatter_S128x128_S1_S128x64_01_n_1_0_wf : ScatterDims.WF S128x128 S1 S128x64 [0, 1] [] [1] 0
  scatter_S128_S1_S64_0_n_0_0_wf : ScatterDims.WF S128 S1 S64 [0] [] [0] 0
  hrank0 : 0 < grid0.rank
  k0_t1_ok : k0_t1_loop.OK
  k0_mult1_dvd : ∀ k0_t1 : Fin k0_t1_loop.trips, 1000 ∣ (k0_mult1 k0_t1).toNat
  k0_off1_inb : ∀ k0_t1 : Fin k0_t1_loop.trips, ∀ a, (k0_off1 k0_t1) a + S1x1000x128.size a ≤ S1x50000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1601536.size a
  hwx0_0 : ∀ i : grid0.Coords, EltTy.bits .i32 = 32 ∨ (Rect.block (s := S1601536) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x50000x128.size a ≤ S2x50000x128.size a
  hwx0_1 : ∀ i : grid0.Coords, EltTy.bits .f32 = 32 ∨ (Rect.block (s := S2x50000x128) S1x50000x128.size (cc0_transform_1 i) (hinb0_1 i)).WholeWords (EltTy.packing .f32)
  hrank1 : 0 < grid1.rank
  k1_t1_ok : k1_t1_loop.OK
  k1_mult1_dvd : ∀ k1_t1 : Fin k1_t1_loop.trips, 1000 ∣ (k1_mult1 k1_t1).toNat
  k1_off1_inb : ∀ k1_t1 : Fin k1_t1_loop.trips, ∀ a, (k1_off1 k1_t1) a + S1x1000x128.size a ≤ S1x50000x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048.size a ≤ S1601536.size a
  hwx1_0 : ∀ i : grid1.Coords, EltTy.bits .i32 = 32 ∨ (Rect.block (s := S1601536) S2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x50000x128.size a ≤ S2x50000x128.size a
  hwx1_1 : ∀ i : grid1.Coords, EltTy.bits .f32 = 32 ∨ (Rect.block (s := S2x50000x128) S1x50000x128.size (cc1_transform_1 i) (hinb1_1 i)).WholeWords (EltTy.packing .f32)
  hrank2 : 0 < grid2.rank
  k2_t1_ok : k2_t1_loop.OK
  k2_mult1_dvd : ∀ k2_t1 : Fin k2_t1_loop.trips, 1000 ∣ (k2_mult1 k2_t1).toNat
  k2_off1_inb : ∀ k2_t1 : Fin k2_t1_loop.trips, ∀ a, (k2_off1 k2_t1) a + S1x1000x128.size a ≤ S1x50000x128.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S1601536x128.size a
  hwx2_0 : ∀ i : grid2.Coords, EltTy.bits .bf16 = 32 ∨ (Rect.block (s := S1601536x128) S2048x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048.size a ≤ S1601536.size a
  hwx2_1 : ∀ i : grid2.Coords, EltTy.bits .i32 = 32 ∨ (Rect.block (s := S1601536) S2048.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x50000x128.size a ≤ S2x50000x128.size a
  hwx2_2 : ∀ i : grid2.Coords, EltTy.bits .f32 = 32 ∨ (Rect.block (s := S2x50000x128) S1x50000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x5000x128.size a ≤ S2x50000x128.size a
  hwx3_0 : ∀ i : grid3.Coords, EltTy.bits .f32 = 32 ∨ (Rect.block (s := S2x50000x128) S2x5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2x5000x128.size a ≤ S2x50000x128.size a
  hwx3_1 : ∀ i : grid3.Coords, EltTy.bits .f32 = 32 ∨ (Rect.block (s := S2x50000x128) S2x5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  k4_t1_ok : k4_t1_loop.OK
  k4_mult1_dvd : ∀ k4_t1 : Fin k4_t1_loop.trips, 1000 ∣ (k4_mult1 k4_t1).toNat
  k4_off1_inb : ∀ k4_t1 : Fin k4_t1_loop.trips, ∀ a, (k4_off1 k4_t1) a + S1x1000x128.size a ≤ S1x50000x128.size a
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S1601536x128.size a
  hwx4_0 : ∀ i : grid4.Coords, EltTy.bits .bf16 = 32 ∨ (Rect.block (s := S1601536x128) S2048x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048.size a ≤ S1601536.size a
  hwx4_1 : ∀ i : grid4.Coords, EltTy.bits .i32 = 32 ∨ (Rect.block (s := S1601536) S2048.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x50000x128.size a ≤ S2x50000x128.size a
  hwx4_2 : ∀ i : grid4.Coords, EltTy.bits .f32 = 32 ∨ (Rect.block (s := S2x50000x128) S1x50000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2x5000x128.size a ≤ S2x50000x128.size a
  hwx5_0 : ∀ i : grid5.Coords, EltTy.bits .f32 = 32 ∨ (Rect.block (s := S2x50000x128) S2x5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2x5000x128.size a ≤ S2x50000x128.size a
  hwx5_1 : ∀ i : grid5.Coords, EltTy.bits .f32 = 32 ∨ (Rect.block (s := S2x50000x128) S2x5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  k6_t1_ok : k6_t1_loop.OK
  k6_mult1_dvd : ∀ k6_t1 : Fin k6_t1_loop.trips, 1000 ∣ (k6_mult1 k6_t1).toNat
  k6_off1_inb : ∀ k6_t1 : Fin k6_t1_loop.trips, ∀ a, (k6_off1 k6_t1) a + S1x1000x128.size a ≤ S1x50000x128.size a
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S1601536x128.size a
  hwx6_0 : ∀ i : grid6.Coords, EltTy.bits .bf16 = 32 ∨ (Rect.block (s := S1601536x128) S2048x128.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048.size a ≤ S1601536.size a
  hwx6_1 : ∀ i : grid6.Coords, EltTy.bits .i32 = 32 ∨ (Rect.block (s := S1601536) S2048.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x50000x128.size a ≤ S2x50000x128.size a
  hwx6_2 : ∀ i : grid6.Coords, EltTy.bits .f32 = 32 ∨ (Rect.block (s := S2x50000x128) S1x50000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2x5000x128.size a ≤ S2x50000x128.size a
  hwx7_0 : ∀ i : grid7.Coords, EltTy.bits .f32 = 32 ∨ (Rect.block (s := S2x50000x128) S2x5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2x5000x128.size a ≤ S2x50000x128.size a
  hwx7_1 : ∀ i : grid7.Coords, EltTy.bits .f32 = 32 ∨ (Rect.block (s := S2x50000x128) S2x5000x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S128x128.size a ≤ S128x128.size a
  hwx7_6 : ∀ i : grid7.Coords, EltTy.bits .f32 = 32 ∨ (Rect.block (s := S128x128) S128x128.size (cc7_transform_6 i) (hinb7_6 i)).WholeWords (EltTy.packing .f32)
  hstage7_7 : ∀ j, (stage7_7 j).IsWhole
  nbuf7_7 : grid7.bufCount reads7_7 true = 1
  hreads7_7 : ∀ i i' : grid7.Coords, (∀ a, reads7_7 a = true → i a = i' a) → cc7_transform_7 i = cc7_transform_7 i'
  hinb7_7 : ∀ (i : grid7.Coords) a, (cc7_transform_7 i a + 1) * S1x128.size a ≤ S1x128.size a
  hwx7_7 : ∀ i : grid7.Coords, EltTy.bits .f32 = 32 ∨ (Rect.block (s := S1x128) S1x128.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S50000x128.size a
  hwx7_8 : ∀ i : grid7.Coords, EltTy.bits .f32 = 32 ∨ (Rect.block (s := S50000x128) S5000x128.size (cc7_transform_8 i) (hinb7_8 i)).WholeWords (EltTy.packing .f32)

variable [Facts₀]

def gather_S50000x128_S1601536x1_S1601536x128_1_0_n_n_0_1_1128 : GatherDims S50000x128 S1601536x1 S1601536x128 where
  offsetDims := [1]
  collapsedSliceDims := [0]
  operandBatchingDims := []
  startIndicesBatchingDims := []
  startIndexMap := [0]
  indexVectorDim := 1
  sliceSizes := ![1, 128]
  wf := gather_S50000x128_S1601536x1_S1601536x128_1_0_n_n_0_1_1128_wf
def dot_S1000x2048_S2048x128_S1000x128_1_0_0_1_n_n : DotDims S1000x2048 S2048x128 S1000x128 where
  lhsContracting := [1]
  rhsContracting := [0]
  lhsNonContracting := [0]
  rhsNonContracting := [1]
  lhsBatch := []
  rhsBatch := []
  wf := dot_S1000x2048_S2048x128_S1000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S128x128_S1_S128x64_01_n_1_0 : ScatterDims S128x128 S1 S128x64 where
  updateWindowDims := [0, 1]
  insertedWindowDims := []
  scatterDimsToOperandDims := [1]
  indexVectorDim := 0
  wf := scatter_S128x128_S1_S128x64_01_n_1_0_wf
def scatter_S128_S1_S64_0_n_0_0 : ScatterDims S128 S1 S64 where
  updateWindowDims := [0]
  insertedWindowDims := []
  scatterDimsToOperandDims := [0]
  indexVectorDim := 0
  wf := scatter_S128_S1_S64_0_n_0_0_wf

abbrev win0_0 : Pipeline.Window sig grid0 :=
  Pipeline.Window.ofSpec (Memref.whole main_v31) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x50000x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v19) S2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x50000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v35) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x50000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v36) S2x5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v32) S2x5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg0) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg5) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v37) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v38) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v40) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v19) S2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S1x50000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v41) S2x5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S2x5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg1) S5000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg2) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg3) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v42) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v43) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v45) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31) S2048.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v46) S1x50000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v46) S2x5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v32) S2x5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v38) S5000x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_arg11) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg12) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v47) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v50) S128x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v54) S1x128.size cc7_transform_7 reads7_7 false true 1 stage7_7 sem7_7
    hrank7 hreads7_7 hinb7_7 nbuf7_7 (Memref.isWhole_whole _) hwx7_7 hstage7_7

abbrev win7_8 : Pipeline.Window sig grid7 :=
  Pipeline.Window.ofSpec (Memref.whole main_v55) S5000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 154
  | .vmem => 0
  | .smem => 0
  | _ => 0

abbrev hbmTy0_0 (i : Nat) : BufTy := match i % 128 with
  | 0 => ⟨S50000x128, .f32⟩
  | 1 => ⟨S50000x128, .f32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x64, .f32⟩
  | 15 => ⟨S64, .f32⟩
  | 16 => ⟨S2x1600000, .i32⟩
  | 17 => ⟨S2x1600000, .i32⟩
  | 18 => ⟨S1x1600000, .i32⟩
  | 19 => ⟨S1600000, .i32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1600000x128, .f32⟩
  | 29 => ⟨S1x1600000, .i32⟩
  | 30 => ⟨S1600000, .i32⟩
  | 31 => ⟨S_, .f32⟩
  | 32 => ⟨S50000x128, .f32⟩
  | 33 => ⟨S1600000x1, .i32⟩
  | 34 => ⟨S50000x128, .f32⟩
  | 35 => ⟨S_, .f32⟩
  | 36 => ⟨S1600000x1, .f32⟩
  | 37 => ⟨S1x1600000, .i32⟩
  | 38 => ⟨S1600000, .i32⟩
  | 39 => ⟨S_, .f32⟩
  | 40 => ⟨S50000x1, .f32⟩
  | 41 => ⟨S1600000x1, .i32⟩
  | 42 => ⟨S50000x1, .f32⟩
  | 43 => ⟨S_, .f32⟩
  | 44 => ⟨S50000x1, .f32⟩
  | 45 => ⟨S50000x1, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S_, .f32⟩
  | 56 => ⟨S50000x128, .f32⟩
  | 57 => ⟨S50000x128, .i1⟩
  | 58 => ⟨S_, .f32⟩
  | 59 => ⟨S50000x128, .f32⟩
  | 60 => ⟨S50000x128, .f32⟩
  | 61 => ⟨S50000x128, .f32⟩
  | 62 => ⟨S1x1600000, .i32⟩
  | 63 => ⟨S1600000, .i32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S1x1600000, .i32⟩
  | 74 => ⟨S1600000, .i32⟩
  | 75 => ⟨S_, .f32⟩
  | 76 => ⟨S50000x128, .f32⟩
  | 77 => ⟨S1600000x1, .i32⟩
  | 78 => ⟨S50000x128, .f32⟩
  | 79 => ⟨S_, .f32⟩
  | 80 => ⟨S1600000x1, .f32⟩
  | 81 => ⟨S1x1600000, .i32⟩
  | 82 => ⟨S1600000, .i32⟩
  | 83 => ⟨S_, .f32⟩
  | 84 => ⟨S50000x1, .f32⟩
  | 85 => ⟨S1600000x1, .i32⟩
  | 86 => ⟨S50000x1, .f32⟩
  | 87 => ⟨S_, .f32⟩
  | 88 => ⟨S50000x1, .f32⟩
  | 89 => ⟨S50000x1, .f32⟩
  | 90 => ⟨S50000x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S50000x128, .f32⟩
  | 97 => ⟨S50000x128, .f32⟩
  | 98 => ⟨S_, .f32⟩
  | 99 => ⟨S_, .f32⟩
  | 100 => ⟨S50000x128, .f32⟩
  | 101 => ⟨S50000x128, .i1⟩
  | 102 => ⟨S_, .f32⟩
  | 103 => ⟨S50000x128, .f32⟩
  | 104 => ⟨S50000x128, .f32⟩
  | 105 => ⟨S50000x128, .f32⟩
  | 106 => ⟨S1x1600000, .i32⟩
  | 107 => ⟨S1600000, .i32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x128, .f32⟩
  | 117 => ⟨S1x1600000, .i32⟩
  | 118 => ⟨S1600000, .i32⟩
  | 119 => ⟨S_, .f32⟩
  | 120 => ⟨S50000x128, .f32⟩
  | 121 => ⟨S1600000x1, .i32⟩
  | 122 => ⟨S50000x128, .f32⟩
  | 123 => ⟨S_, .f32⟩
  | 124 => ⟨S1600000x1, .f32⟩
  | 125 => ⟨S1x1600000, .i32⟩
  | 126 => ⟨S1600000, .i32⟩
  | 127 => ⟨S_, .f32⟩
  | _ => ⟨S50000x128, .f32⟩

abbrev hbmTy0_1 (i : Nat) : BufTy := match i % 128 with
  | 0 => ⟨S50000x1, .f32⟩
  | 1 => ⟨S1600000x1, .i32⟩
  | 2 => ⟨S50000x1, .f32⟩
  | 3 => ⟨S_, .f32⟩
  | 4 => ⟨S50000x1, .f32⟩
  | 5 => ⟨S50000x1, .f32⟩
  | 6 => ⟨S50000x128, .f32⟩
  | 7 => ⟨S50000x128, .f32⟩
  | 8 => ⟨S50000x128, .f32⟩
  | 9 => ⟨S1x128, .f32⟩
  | 10 => ⟨S50000x128, .f32⟩
  | 11 => ⟨S50000x128, .f32⟩
  | 12 => ⟨S50000x128, .f32⟩
  | 13 => ⟨S50000x128, .f32⟩
  | 14 => ⟨S_, .f32⟩
  | 15 => ⟨S_, .f32⟩
  | 16 => ⟨S50000x128, .f32⟩
  | 17 => ⟨S50000x128, .i1⟩
  | 18 => ⟨S_, .f32⟩
  | 19 => ⟨S50000x128, .f32⟩
  | 20 => ⟨S50000x128, .f32⟩
  | 21 => ⟨S50000x128, .f32⟩
  | 22 => ⟨S50000x64, .f32⟩
  | 23 => ⟨S1x64, .f32⟩
  | 24 => ⟨S50000x64, .f32⟩
  | 25 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_4 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_c_5 : Ref sig .tc := ⟨.hbm, 64, rfl⟩
abbrev main_v33 : Ref sig .tc := ⟨.hbm, 65, rfl⟩
abbrev main_v34 : Ref sig .tc := ⟨.hbm, 66, rfl⟩
abbrev main_c_6 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_9 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_10 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_cst_11 : Ref sig .tc := ⟨.hbm, 98, rfl⟩
abbrev main_call1_cst : Ref sig .tc := ⟨.hbm, 99, rfl⟩
abbrev main_call1_v0 : Ref sig .tc := ⟨.hbm, 100, rfl⟩
abbrev main_call1_v1 : Ref sig .tc := ⟨.hbm, 101, rfl⟩
abbrev main_call1_v2 : Ref sig .tc := ⟨.hbm, 102, rfl⟩
abbrev main_call1_v3 : Ref sig .tc := ⟨.hbm, 103, rfl⟩
abbrev main_call1_v4 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_c_12 : Ref sig .tc := ⟨.hbm, 108, rfl⟩
abbrev main_v64 : Ref sig .tc := ⟨.hbm, 109, rfl⟩
abbrev main_v65 : Ref sig .tc := ⟨.hbm, 110, rfl⟩
abbrev main_c_13 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_14 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_15 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_cst_16 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_cst_17 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_18 : Ref sig .tc := ⟨.hbm, 142, rfl⟩
abbrev main_call2_cst : Ref sig .tc := ⟨.hbm, 143, rfl⟩
abbrev main_call2_v0 : Ref sig .tc := ⟨.hbm, 144, rfl⟩
abbrev main_call2_v1 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S50000x128 : S_.BroadcastsInDim S50000x128 (![] : Fin 0 → Fin S50000x128.rank)
  bcast_S_S1600000x1 : S_.BroadcastsInDim S1600000x1 (![] : Fin 0 → Fin S1600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000x1_S1600000x1_S1600000x1_1_0_0_1_wf : ScatterDims.WF S50000x1 S1600000x1 S1600000x1 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Spec.lean ====
import Idealize.ShloMosaic.Lib.ValueIdx
import Idealize.ShloMosaic.PureOps.Ideal

noncomputable section

open scoped BigOperators

namespace Cert.Spec

open Idealize.ShloMosaic

-- A source word read signed; a negative one is shifted up by the number of nodes.
def wrap (s : BitVec 32) : BitVec 32 := if s.toInt < 0 then s + 50000#32 else s

-- The node a source word names, clamped into the node range.
def row (s : BitVec 32) : Fin 50000 := ⟨min (wrap s).toInt.toNat 49999, by omega⟩

def slope : EReal := Ideal.ofBits .f32 0x3C23D70A#32

def leaky (y : EReal) : EReal := if (0 : EReal) ≤ y then y else slope * y

def segSum (dst : Fin 1600000 → BitVec 32) (msg : Fin 1600000 → Fin 128 → EReal) (r : Fin 50000) (d : Fin 128) : EReal :=
  ∑ e : Fin 1600000, if (dst e).toInt = (r.val : ℤ) then msg e d else 0

def segCnt (dst : Fin 1600000 → BitVec 32) (r : Fin 50000) : EReal :=
  ∑ e : Fin 1600000, if (dst e).toInt = (r.val : ℤ) then (1 : EReal) else 0

-- The average over the edges ending at r of the source rows; a node with no edge divides by one.
def mean (src dst : Fin 1600000 → BitVec 32) (x : Fin 50000 → Fin 128 → EReal) (r : Fin 50000) (k : Fin 128) : EReal :=
  Ideal.div (segSum dst (fun e d => x (row (src e)) d) r k) (max (segCnt dst r) 1)

def sage (xs xd : Fin 50000 → Fin 128 → EReal) (src dst : Fin 1600000 → BitVec 32) (Wl Wr : Fin 128 → Fin 128 → EReal)
    (b : Fin 128 → EReal) (r : Fin 50000) (j : Fin 128) : EReal :=
  leaky ((∑ k : Fin 128, mean src dst xs r k * Wl k j) + b j + ∑ k : Fin 128, xd r k * Wr k j)

-- The network: two layers on the bipartite graph, then the output product and bias on the user side.
def out (xu xi : Fin 50000 → Fin 128 → EReal)
    (W0ul W0ur : Fin 128 → Fin 128 → EReal) (b0u : Fin 128 → EReal)
    (W0il W0ir : Fin 128 → Fin 128 → EReal) (b0i : Fin 128 → EReal)
    (W1il W1ir : Fin 128 → Fin 128 → EReal) (b1i : Fin 128 → EReal)
    (Wo : Fin 128 → Fin 64 → EReal) (bo : Fin 64 → EReal)
    (eu ei : Fin 2 → Fin 1600000 → BitVec 32) (r : Fin 50000) (o : Fin 64) : EReal :=
  let hu := sage xi xu (ei 0) (ei 1) W0il W0ir b0i
  let hi := sage xu xi (eu 0) (eu 1) W0ul W0ur b0u
  let hu2 := sage hi hu (ei 0) (ei 1) W1il W1ir b1i
  (∑ k : Fin 128, hu2 r k * Wo k o) + bo o

-- An edge list cut into two halves of 800000, each followed by 768 pad words.
def flat (v : Fin 1600000 → BitVec 32) (pad : BitVec 32) (p : Fin 1601536) : BitVec 32 :=
  if h : p.val < 800000 then v ⟨p.val, by omega⟩
  else if h' : p.val < 800768 then pad
  else if h'' : p.val < 1600768 then v ⟨p.val - 768, by omega⟩
  else pad

-- Position of edge e of chunk k of half h in the padded list: 391 chunks of 2048 a half.
def pos (h : Fin 2) (k : Fin 391) (e : Fin 2048) : Fin 1601536 := ⟨(h.val * 391 + k.val) * 2048 + e.val, by
  have := h.isLt; have := k.isLt; have := e.isLt; omega⟩

def chunkCnt (x : Fin 2048 → BitVec 32) (r : Fin 50000) : EReal :=
  ∑ e : Fin 2048, if x e = BitVec.ofNat 32 r.val then (1 : EReal) else 0

def chunkSum (x : Fin 2048 → BitVec 32) (msg : Fin 2048 → Fin 128 → EReal) (r : Fin 50000) (d : Fin 128) : EReal :=
  ∑ e : Fin 2048, if x e = BitVec.ofNat 32 r.val then msg e d else 0

def cntHalf (fd : Fin 1601536 → BitVec 32) (h : Fin 2) (r : Fin 50000) : EReal :=
  ∑ k : Fin 391, chunkCnt (fun e => fd (pos h k e)) r

def sumHalf (fd : Fin 1601536 → BitVec 32) (msg : Fin 1601536 → Fin 128 → EReal) (h : Fin 2) (r : Fin 50000) (d : Fin 128) : EReal :=
  ∑ k : Fin 391, chunkSum (fun e => fd (pos h k e)) (fun e d => msg (pos h k e) d) r d

-- The dense step on two half sums S and two half counts C (a count is read in lane 0).
def combine (S C : Fin 2 → Fin 50000 → Fin 128 → EReal) (xd : Fin 50000 → Fin 128 → EReal)
    (Wl Wr : Fin 128 → Fin 128 → EReal) (b : Fin 128 → EReal) (r : Fin 50000) (j : Fin 128) : EReal :=
  leaky ((∑ k : Fin 128, Ideal.div (S 0 r k + S 1 r k) (max (C 0 r 0 + C 1 r 0) 1) * Wl k j)
    + (∑ k : Fin 128, xd r k * Wr k j) + b j)

def head (S C : Fin 2 → Fin 50000 → Fin 128 → EReal) (xd : Fin 50000 → Fin 128 → EReal)
    (Wl Wr : Fin 128 → Fin 128 → EReal) (b : Fin 128 → EReal) (WoP : Fin 128 → Fin 128 → EReal) (boP : Fin 128 → EReal)
    (r : Fin 50000) (o : Fin 128) : EReal :=
  (∑ k : Fin 128, combine S C xd Wl Wr b r k * WoP k o) + boP o

-- A row read through a source word; out of range it reads the quiet-NaN word.
def takeRow (x : Fin 50000 → Fin 128 → EReal) (s : BitVec 32) (d : Fin 128) : EReal :=
  if 0 ≤ (wrap s).toInt ∧ (wrap s).toInt ≤ 49999 then x (row s) d else Ideal.ofBits .f32 0x7FC00000#32

def kSum (xs : Fin 50000 → Fin 128 → EReal) (src dst : Fin 1600000 → BitVec 32) (h : Fin 2) (r : Fin 50000) (d : Fin 128) : EReal :=
  sumHalf (flat dst 50000#32) (fun p d => takeRow xs (flat src 0#32 p) d) h r d
def kCnt (dst : Fin 1600000 → BitVec 32) (h : Fin 2) (r : Fin 50000) (_l : Fin 128) : EReal :=
  cntHalf (flat dst 50000#32) h r

def padW (Wo : Fin 128 → Fin 64 → EReal) (k : Fin 128) (o : Fin 128) : EReal := if h : o.val < 64 then Wo k ⟨o.val, h⟩ else 0
def padB (bo : Fin 64 → EReal) (o : Fin 128) : EReal := if h : o.val < 64 then bo ⟨o.val, h⟩ else 0

-- The same network as the kernel arranges it: padded half sums and counts, the head on 128 padded columns.
def kout (xu xi : Fin 50000 → Fin 128 → EReal)
    (W0ul W0ur : Fin 128 → Fin 128 → EReal) (b0u : Fin 128 → EReal)
    (W0il W0ir : Fin 128 → Fin 128 → EReal) (b0i : Fin 128 → EReal)
    (W1il W1ir : Fin 128 → Fin 128 → EReal) (b1i : Fin 128 → EReal)
    (Wo : Fin 128 → Fin 64 → EReal) (bo : Fin 64 → EReal)
    (eu ei : Fin 2 → Fin 1600000 → BitVec 32) (r : Fin 50000) (o : Fin 64) : EReal :=
  let hu := combine (kSum xi (ei 0) (ei 1)) (kCnt (ei 1)) xu W0il W0ir b0i
  let hi := combine (kSum xu (eu 0) (eu 1)) (kCnt (eu 1)) xi W0ul W0ur b0u
  head (kSum hi (ei 0) (ei 1)) (kCnt (ei 1)) hu W1il W1ir b1i (padW Wo) (padB bo) r ⟨o.val, by omega⟩

end Cert.Spec

end
-- ==== Proof.Bridge.lean ====
import proofs.«420317_j38706245272172_4_alg».proof.Proof.Spec

noncomputable section

open scoped BigOperators

namespace Cert.Spec

open Idealize.ShloMosaic

theorem toInt_ofNat_node (r : Fin 50000) : (BitVec.ofNat 32 r.val).toInt = (r.val : ℤ) := by
  have hr := r.isLt
  have h1 : (BitVec.ofNat 32 r.val).toNat = r.val := by
    rw [BitVec.toNat_ofNat]; omega
  rw [BitVec.toInt_eq_toNat_of_lt (by rw [h1]; omega), h1]

theorem eq_ofNat_iff (w : BitVec 32) (r : Fin 50000) :
    w = BitVec.ofNat 32 r.val ↔ w.toInt = (r.val : ℤ) :=
  ⟨fun h => h ▸ toInt_ofNat_node r, fun h => BitVec.eq_of_toInt_eq (h.trans (toInt_ofNat_node r).symm)⟩

theorem pad_ne (r : Fin 50000) : ¬ (50000#32 = BitVec.ofNat 32 r.val) := by
  have hr := r.isLt
  intro h
  have := congrArg BitVec.toNat h
  simp at this
  omega

theorem sum_split {M : Type*} [AddCommMonoid M] (a b N : ℕ) (hN : N = a + b) (F : Fin N → M) :
    ∑ e : Fin N, F e = (∑ q : Fin a, F ⟨q.val, by omega⟩) + ∑ q : Fin b, F ⟨a + q.val, by omega⟩ := by
  subst hN
  rw [Fin.sum_univ_add]
  rfl

theorem sum_chunks {M : Type*} [AddCommMonoid M] (m n N off : ℕ) (hN : off + m * n ≤ N) (G : Fin N → M) :
    (∑ k : Fin m, ∑ e : Fin n, G ⟨off + (k.val * n + e.val), by
        have := k.isLt; have := e.isLt
        have : k.val * n + e.val < m * n := by nlinarith
        omega⟩)
      = ∑ q : Fin (m * n), G ⟨off + q.val, by omega⟩ := by
  rw [← Finset.sum_product']
  refine Fintype.sum_equiv finProdFinEquiv _ _ ?_
  rintro ⟨k, e⟩
  congr 1
  apply Fin.ext
  simp [finProdFinEquiv]
  ring

theorem sum_half {M : Type*} [AddCommMonoid M] (G : Fin 1601536 → M) (h : Fin 2) (off : ℕ)
    (hoff : h.val * 800768 = off) :
    (∑ k : Fin 391, ∑ e : Fin 2048, G (pos h k e))
      = (∑ q : Fin 800000, G ⟨off + q.val, by have := h.isLt; omega⟩)
        + ∑ q : Fin 768, G ⟨off + (800000 + q.val), by have := h.isLt; omega⟩ := by
  have hh := h.isLt
  subst hoff
  have e1 : (∑ k : Fin 391, ∑ e : Fin 2048, G (pos h k e))
      = ∑ k : Fin 391, ∑ e : Fin 2048, G ⟨h.val * 800768 + (k.val * 2048 + e.val), by
          have := k.isLt; have := e.isLt; omega⟩ := by
    refine Finset.sum_congr rfl fun k _ => Finset.sum_congr rfl fun e _ => ?_
    congr 1
    apply Fin.ext
    simp only [pos]
    ring
  rw [e1, sum_chunks 391 2048 1601536 (h.val * 800768) (by omega) G,
    sum_split 800000 768 (391 * 2048) (by norm_num)]

theorem sum_halves {M : Type*} [AddCommMonoid M] (G : Fin 1601536 → M) (F : Fin 1600000 → M)
    (ha : ∀ q : Fin 800000, G ⟨q.val, by omega⟩ = F ⟨q.val, by omega⟩)
    (hb : ∀ q : Fin 768, G ⟨800000 + q.val, by omega⟩ = 0)
    (hc : ∀ q : Fin 800000, G ⟨800768 + q.val, by omega⟩ = F ⟨800000 + q.val, by omega⟩)
    (hd : ∀ q : Fin 768, G ⟨1600768 + q.val, by omega⟩ = 0) :
    (∑ k : Fin 391, ∑ e : Fin 2048, G (pos 0 k e)) + (∑ k : Fin 391, ∑ e : Fin 2048, G (pos 1 k e))
      = ∑ e : Fin 1600000, F e := by
  have A0 : (∑ q : Fin 800000, G ⟨0 + q.val, by omega⟩) = ∑ q : Fin 800000, F ⟨q.val, by omega⟩ :=
    Finset.sum_congr rfl fun q _ => (congrArg G (Fin.ext (Nat.zero_add _))).trans (ha q)
  have B0 : (∑ q : Fin 768, G ⟨0 + (800000 + q.val), by omega⟩) = 0 :=
    Finset.sum_eq_zero fun q _ => (congrArg G (Fin.ext (Nat.zero_add _))).trans (hb q)
  have A1 : (∑ q : Fin 800000, G ⟨800768 + q.val, by omega⟩) = ∑ q : Fin 800000, F ⟨800000 + q.val, by omega⟩ :=
    Finset.sum_congr rfl fun q _ => hc q
  have B1 : (∑ q : Fin 768, G ⟨800768 + (800000 + q.val), by omega⟩) = 0 :=
    Finset.sum_eq_zero fun q _ =>
      (congrArg G (Fin.ext (by show 800768 + (800000 + q.val) = 1600768 + q.val; omega))).trans (hd q)
  rw [sum_half G 0 0 rfl, sum_half G 1 800768 rfl, A0, B0, A1, B1, add_zero, add_zero,
    sum_split 800000 800000 1600000 (by norm_num) F]

theorem flat_lo (v : Fin 1600000 → BitVec 32) (pad : BitVec 32) (q : Fin 800000) :
    flat v pad ⟨q.val, by omega⟩ = v ⟨q.val, by omega⟩ := by
  have hq := q.isLt
  unfold flat
  rw [dif_pos (by show q.val < 800000; omega)]

theorem flat_pad0 (v : Fin 1600000 → BitVec 32) (pad : BitVec 32) (q : Fin 768) :
    flat v pad ⟨800000 + q.val, by omega⟩ = pad := by
  have hq := q.isLt
  unfold flat
  rw [dif_neg (by show ¬ (800000 + q.val < 800000); omega),
    dif_pos (by show 800000 + q.val < 800768; omega)]

theorem flat_hi (v : Fin 1600000 → BitVec 32) (pad : BitVec 32) (q : Fin 800000) :
    flat v pad ⟨800768 + q.val, by omega⟩ = v ⟨800000 + q.val, by omega⟩ := by
  have hq := q.isLt
  unfold flat
  rw [dif_neg (by show ¬ (800768 + q.val < 800000); omega),
    dif_neg (by show ¬ (800768 + q.val < 800768); omega),
    dif_pos (by show 800768 + q.val < 1600768; omega)]
  exact congrArg v (Fin.ext (by show 800768 + q.val - 768 = 800000 + q.val; omega))

theorem flat_pad1 (v : Fin 1600000 → BitVec 32) (pad : BitVec 32) (q : Fin 768) :
    flat v pad ⟨1600768 + q.val, by omega⟩ = pad := by
  have hq := q.isLt
  unfold flat
  rw [dif_neg (by show ¬ (1600768 + q.val < 800000); omega),
    dif_neg (by show ¬ (1600768 + q.val < 800768); omega),
    dif_neg (by show ¬ (1600768 + q.val < 1600768); omega)]

theorem takeRow_of_range (x : Fin 50000 → Fin 128 → EReal) (s : BitVec 32) (d : Fin 128)
    (hs : 0 ≤ s.toInt ∧ s.toInt < 50000) : takeRow x s d = x (row s) d := by
  have hw : wrap s = s := by unfold wrap; rw [if_neg (by omega)]
  unfold takeRow
  rw [hw, if_pos ⟨hs.1, by omega⟩]

theorem flat_src_range (src : Fin 1600000 → BitVec 32)
    (hsrc : ∀ e, 0 ≤ (src e).toInt ∧ (src e).toInt < 50000) (p : Fin 1601536) :
    0 ≤ (flat src 0#32 p).toInt ∧ (flat src 0#32 p).toInt < 50000 := by
  unfold flat
  split_ifs
  · exact hsrc _
  · simp
  · exact hsrc _
  · simp

theorem takeRow_flat (x : Fin 50000 → Fin 128 → EReal) (src : Fin 1600000 → BitVec 32)
    (hsrc : ∀ e, 0 ≤ (src e).toInt ∧ (src e).toInt < 50000) (p : Fin 1601536) (d : Fin 128) :
    takeRow x (flat src 0#32 p) d = x (row (flat src 0#32 p)) d :=
  takeRow_of_range x _ d (flat_src_range src hsrc p)

theorem kCnt_add (dst : Fin 1600000 → BitVec 32) (r : Fin 50000) (l : Fin 128) :
    kCnt dst 0 r l + kCnt dst 1 r l = segCnt dst r := by
  simp only [kCnt, cntHalf, chunkCnt, segCnt]
  refine sum_halves (fun p => if flat dst 50000#32 p = BitVec.ofNat 32 r.val then (1 : EReal) else 0)
    (fun e => if (dst e).toInt = (r.val : ℤ) then (1 : EReal) else 0) ?_ ?_ ?_ ?_
  · intro q; simp only [flat_lo, eq_ofNat_iff]
  · intro q; simp only [flat_pad0]; exact if_neg (pad_ne r)
  · intro q; simp only [flat_hi, eq_ofNat_iff]
  · intro q; simp only [flat_pad1]; exact if_neg (pad_ne r)

theorem kSum_add (xs : Fin 50000 → Fin 128 → EReal) (src dst : Fin 1600000 → BitVec 32)
    (hsrc : ∀ e, 0 ≤ (src e).toInt ∧ (src e).toInt < 50000) (r : Fin 50000) (d : Fin 128) :
    kSum xs src dst 0 r d + kSum xs src dst 1 r d = segSum dst (fun e d => xs (row (src e)) d) r d := by
  simp only [kSum, sumHalf, chunkSum, segSum]
  refine sum_halves
    (fun p => if flat dst 50000#32 p = BitVec.ofNat 32 r.val then takeRow xs (flat src 0#32 p) d else 0)
    (fun e => if (dst e).toInt = (r.val : ℤ) then xs (row (src e)) d else 0) ?_ ?_ ?_ ?_
  · intro q; simp only [flat_lo, eq_ofNat_iff, takeRow_of_range xs _ d (hsrc _)]
  · intro q; simp only [flat_pad0]; exact if_neg (pad_ne r)
  · intro q; simp only [flat_hi, eq_ofNat_iff, takeRow_of_range xs _ d (hsrc _)]
  · intro q; simp only [flat_pad1]; exact if_neg (pad_ne r)

theorem combine_eq_sage (xs xd : Fin 50000 → Fin 128 → EReal) (src dst : Fin 1600000 → BitVec 32)
    (Wl Wr : Fin 128 → Fin 128 → EReal) (b : Fin 128 → EReal)
    (hsrc : ∀ e, 0 ≤ (src e).toInt ∧ (src e).toInt < 50000) :
    combine (kSum xs src dst) (kCnt dst) xd Wl Wr b = sage xs xd src dst Wl Wr b := by
  funext r j
  simp only [combine, sage, mean, kSum_add xs src dst hsrc, kCnt_add]
  rw [add_right_comm]

theorem head_pad (S C : Fin 2 → Fin 50000 → Fin 128 → EReal) (xd : Fin 50000 → Fin 128 → EReal)
    (Wl Wr : Fin 128 → Fin 128 → EReal) (b : Fin 128 → EReal) (Wo : Fin 128 → Fin 64 → EReal) (bo : Fin 64 → EReal)
    (r : Fin 50000) (o : Fin 64) :
    head S C xd Wl Wr b (padW Wo) (padB bo) r ⟨o.val, by omega⟩
      = (∑ k : Fin 128, combine S C xd Wl Wr b r k * Wo k o) + bo o := by
  have ho := o.isLt
  simp only [head, padW, padB, dif_pos ho, Fin.eta]

theorem kout_eq_out (xu xi : Fin 50000 → Fin 128 → EReal)
    (W0ul W0ur : Fin 128 → Fin 128 → EReal) (b0u : Fin 128 → EReal)
    (W0il W0ir : Fin 128 → Fin 128 → EReal) (b0i : Fin 128 → EReal)
    (W1il W1ir : Fin 128 → Fin 128 → EReal) (b1i : Fin 128 → EReal)
    (Wo : Fin 128 → Fin 64 → EReal) (bo : Fin 64 → EReal)
    (eu ei : Fin 2 → Fin 1600000 → BitVec 32)
    (hu : ∀ e, 0 ≤ (eu 0 e).toInt ∧ (eu 0 e).toInt < 50000)
    (hi : ∀ e, 0 ≤ (ei 0 e).toInt ∧ (ei 0 e).toInt < 50000) :
    kout xu xi W0ul W0ur b0u W0il W0ir b0i W1il W1ir b1i Wo bo eu ei
      = out xu xi W0ul W0ur b0u W0il W0ir b0i W1il W1ir b1i Wo bo eu ei := by
  funext r o
  simp only [kout, out, head_pad, combine_eq_sage _ _ _ _ _ _ _ hu, combine_eq_sage _ _ _ _ _ _ _ hi]

end Cert.Spec

end
-- ==== Proof.PreDecode.lean ====
import proofs.«420317_j38706245272172_4_alg».proof.Defs
import Idealize.ShloMosaic.Lib.ReduceAll
import Idealize.ShloMosaic.Lib.ValueLayout

noncomputable section

namespace Cert.PreDecode

open Idealize.ShloMosaic Idealize.ShloMosaic.ValueIdx Idealize.ShloMosaic.TcCoe Idealize.SL.Sem
open Cert.Pre_finite_inputs

instance : Subsingleton S_.Idx := ⟨fun a b => funext fun d => d.elim0⟩

theorem row0_apply {α : Type} (x : S2x1600000.Idx → α) (hs : S2x1600000.Slices ![0, 0] S1x1600000)
    (hc : S1x1600000.ShapeCasts S1600000) (e : Fin 1600000) :
    shapeCast S1600000 (extractStridedSlice S1x1600000 ![0, 0] x hs) hc (ix1 e) = x (ix2 (0 : Fin 2) e) := by
  rw [shapeCast_1a_a_apply]
  exact extractStridedSlice_apply _ _ _ _ _ (fun a => by
    match a with
    | ⟨0, _⟩ => exact (Nat.zero_add _).symm
    | ⟨1, _⟩ => exact (Nat.zero_add _).symm)

theorem word_range (w : BitVec 32) (h0 : IntOp.cmpi .sge w 0#32 = 1#1) (h1 : IntOp.cmpi .slt w 50000#32 = 1#1) :
    0 ≤ w.toInt ∧ w.toInt < 50000 := by
  rw [IntOp.cmpi_sge] at h0
  rw [IntOp.cmpi_slt] at h1
  exact ⟨h0, h1⟩

variable [Facts]

theorem part5 (arg17 : IVec S2x1600000 32) (v78 : IVec S_ 1) (v82 : IVec S1600000 1) (v84 v85 : IVec S1600000 32) (j : S_.Idx)
    (e : fn_part5 (F := Ideal) arg17 v78 v82 v84 v85 j = 1#1) :
    (∀ i, v82 i = 1#1 ∧ IntOp.cmpi .slt (v84 i) (v85 i) = 1#1)
      ∧ ∀ p : Fin 1600000, 0 ≤ (arg17 (ix2 (0 : Fin 2) p)).toInt ∧ (arg17 (ix2 (0 : Fin 2) p)).toInt < 50000 := by
  unfold fn_part5 at e
  dsimp only at e
  obtain ⟨h89, h99⟩ := IntOp.andi_eq_one.1 e
  obtain ⟨-, h88⟩ := IntOp.andi_eq_one.1 h89
  refine ⟨fun i => IntOp.andi_eq_one.1 (Host.reduce_andi_all _ _ _ _ j h88 i), fun p => ?_⟩
  obtain ⟨g0, g1⟩ := IntOp.andi_eq_one.1 (Host.reduce_andi_all _ _ _ _ j h99 (ix1 p))
  have r := row0_apply arg17 Facts.slices_S2x1600000_S1x1600000_0_0 Facts.shapeCasts_S1x1600000_S1600000 p
  refine word_range _ ?_ ?_
  · rw [← r]; exact g0
  · rw [← r]; exact g1

theorem src_ok (m : (ℓ : Loc Cert.KernelIdeal.nD Cert.KernelIdeal.τ Cert.KernelIdeal.sig) → Buf (Elt Ideal) ℓ)
    (h : Cert.Pre_KernelIdeal m) (c : Dev Cert.KernelIdeal.nD) :
    (∀ e : Fin 1600000,
        0 ≤ ((m ((c.tc : Thread Cert.KernelIdeal.nD Cert.KernelIdeal.τ).loc Cert.KernelIdeal.main_arg16) : Cert.KernelIdeal.S2x1600000.Idx → BitVec 32) (ix2 0 e)).toInt
        ∧ ((m ((c.tc : Thread Cert.KernelIdeal.nD Cert.KernelIdeal.τ).loc Cert.KernelIdeal.main_arg16) : Cert.KernelIdeal.S2x1600000.Idx → BitVec 32) (ix2 0 e)).toInt < 50000)
    ∧ (∀ e : Fin 1600000,
        0 ≤ ((m ((c.tc : Thread Cert.KernelIdeal.nD Cert.KernelIdeal.τ).loc Cert.KernelIdeal.main_arg17) : Cert.KernelIdeal.S2x1600000.Idx → BitVec 32) (ix2 0 e)).toInt
        ∧ ((m ((c.tc : Thread Cert.KernelIdeal.nD Cert.KernelIdeal.τ).loc Cert.KernelIdeal.main_arg17) : Cert.KernelIdeal.S2x1600000.Idx → BitVec 32) (ix2 0 e)).toInt < 50000) := by
  have e := congrFun (h c) ix0
  change fn_part5 (F := Ideal) _ _ _ _ _ ix0 = 1#1 at e
  obtain ⟨h16, h17⟩ := part5 _ _ _ _ _ _ e
  refine ⟨fun p => ?_, h17⟩
  obtain ⟨g0, g1⟩ := h16 (ix1 p)
  have r := row0_apply (m ((c.tc : Thread Cert.KernelIdeal.nD Cert.KernelIdeal.τ).loc Cert.KernelIdeal.main_arg16))
    Facts.slices_S2x1600000_S1x1600000_0_0 Facts.shapeCasts_S1x1600000_S1600000 p
  refine word_range _ ?_ ?_
  · rw [← r]; exact g0
  · rw [← r]; exact g1

end Cert.PreDecode

end
-- ==== Proof.RefRun.lean ====
import proofs.«420317_j38706245272172_4_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ unary main_arg17 main_v0 (extractStridedSlice S1x1600000 ![0, 0] · slices_S2x1600000_S1x1600000_0_0),
    reshape main_v0 main_v1 rfl shapeCasts_S1x1600000_S1600000,
    nullary main_c (constantI S_ 32 0#32),
    unary main_c main_v2 (broadcastInDim S1600000 ![] bcast_S_S1600000),
    binary main_v1 main_v2 main_v3 (cmpi .slt),
    nullary main_c_0 (constantI S_ 32 50000#32),
    unary main_c_0 main_v4 (broadcastInDim S1600000 ![] bcast_S_S1600000),
    binary main_v1 main_v4 main_v5 addi,
    ternary main_v3 main_v5 main_v1 main_v6 select,
    unary main_v6 main_v7 (broadcastInDim S1600000x1 ![0] bcast_S1600000_S1600000x1_0),
    binary main_arg1 main_v7 main_v8 (fun x i => Host.gather gather_S50000x128_S1600000x1_S1600000x128_1_0_n_n_0_1_1128 x i),
    unary main_arg17 main_v9 (extractStridedSlice S1x1600000 ![1, 0] · slices_S2x1600000_S1x1600000_1_0),
    reshape main_v9 main_v10 rfl shapeCasts_S1x1600000_S1600000,
    nullary main_cst (constant S_ .f32 0x00000000#32),
    unary main_cst main_v11 (broadcastInDim S50000x128 ![] bcast_S_S50000x128),
    unary main_v10 main_v12 (broadcastInDim S1600000x1 ![0] bcast_S1600000_S1600000x1_0),
    ternary main_v11 main_v12 main_v8 main_v13 (fun x i u => Host.scatterAdd scatter_S50000x128_S1600000x1_S1600000x128_1_0_0_1 x i u),
    nullary main_cst_1 (constant S_ .f32 0x3F800000#32),
    unary main_cst_1 main_v14 (broadcastInDim S1600000x1 ![] bcast_S_S1600000x1),
    unary main_arg17 main_v15 (extractStridedSlice S1x1600000 ![1, 0] · slices_S2x1600000_S1x1600000_1_0),
    reshape main_v15 main_v16 rfl shapeCasts_S1x1600000_S1600000,
    nullary main_cst_2 (constant S_ .f32 0x00000000#32),
    unary main_cst_2 main_v17 (broadcastInDim S50000x1 ![] bcast_S_S50000x1),
    unary main_v16 main_v18 (broadcastInDim S1600000x1 ![0] bcast_S1600000_S1600000x1_0),
    ternary main_v17 main_v18 main_v14 main_v19 (fun x i u => Host.scatterAdd scatter_S50000x1_S1600000x1_S1600000x1_1_0_0_1 x i u),
    nullary main_cst_3 (constant S_ .f32 0x3F800000#32),
    unary main_cst_3 main_v20 (broadcastInDim S50000x1 ![] bcast_S_S50000x1),
    binary main_v19 main_v20 main_v21 maximumf,
    unary main_v21 main_v22 (broadcastInDim S50000x128 ![0, 1] bcast_S50000x1_S50000x128_0_1),
    binary main_v13 main_v22 main_v23 Host.divf,
    binary main_v23 main_arg5 main_v24 (fun l r => Host.dotGeneral dot_S50000x128_S128x128_S50000x128_1_0_0_1_n_n none l r),
    unary main_arg7 main_v25 (broadcastInDim S1x128 ![1] bcast_S128_S1x128_1),
    unary main_v25 main_v26 (broadcastInDim S50000x128 ![0, 1] bcast_S1x128_S50000x128_0_1),
    binary main_v24 main_v26 main_v27 addf,
    binary main_arg0 main_arg6 main_v28 (fun l r => Host.dotGeneral dot_S50000x128_S128x128_S50000x128_1_0_0_1_n_n none l r),
    binary main_v27 main_v28 main_v29 addf,
    nullary main_cst_4 (constant S_ .f32 0x3C23D70A#32),
    TRef.nullary main_call0.cst (constant S_ .f32 0x00000000#32),
    TRef.unary main_call0.cst main_call0.v0 (broadcastInDim S50000x128 ![] bcast_S_S50000x128),
    TRef.binary (TRef.of main_v29 : TRef sig ⟨S50000x128, .f32⟩) main_call0.v0 main_call0.v1 (cmpf .oge),
    TRef.unary (TRef.of main_cst_4 : TRef sig ⟨S_, .f32⟩) main_call0.v2 id,
    TRef.unary main_call0.v2 main_call0.v3 (broadcastInDim S50000x128 ![] bcast_S_S50000x128),
    TRef.binary main_call0.v3 (TRef.of main_v29 : TRef sig ⟨S50000x128, .f32⟩) main_call0.v4 mulf,
    TRef.ternary main_call0.v1 (TRef.of main_v29 : TRef sig ⟨S50000x128, .f32⟩) main_call0.v4 main_call0.call0.v0 select,
    unary main_arg16 main_v31 (extractStridedSlice S1x1600000 ![0, 0] · slices_S2x1600000_S1x1600000_0_0),
    reshape main_v31 main_v32 rfl shapeCasts_S1x1600000_S1600000,
    nullary main_c_5 (constantI S_ 32 0#32),
    unary main_c_5 main_v33 (broadcastInDim S1600000 ![] bcast_S_S1600000),
    binary main_v32 main_v33 main_v34 (cmpi .slt),
    nullary main_c_6 (constantI S_ 32 50000#32),
    unary main_c_6 main_v35 (broadcastInDim S1600000 ![] bcast_S_S1600000),
    binary main_v32 main_v35 main_v36 addi,
    ternary main_v34 main_v36 main_v32 main_v37 select,
    unary main_v37 main_v38 (broadcastInDim S1600000x1 ![0] bcast_S1600000_S1600000x1_0),
    binary main_arg0 main_v38 main_v39 (fun x i => Host.gather gather_S50000x128_S1600000x1_S1600000x128_1_0_n_n_0_1_1128 x i),
    unary main_arg16 main_v40 (extractStridedSlice S1x1600000 ![1, 0] · slices_S2x1600000_S1x1600000_1_0),
    reshape main_v40 main_v41 rfl shapeCasts_S1x1600000_S1600000,
    nullary main_cst_7 (constant S_ .f32 0x00000000#32),
    unary main_cst_7 main_v42 (broadcastInDim S50000x128 ![] bcast_S_S50000x128),
    unary main_v41 main_v43 (broadcastInDim S1600000x1 ![0] bcast_S1600000_S1600000x1_0),
    ternary main_v42 main_v43 main_v39 main_v44 (fun x i u => Host.scatterAdd scatter_S50000x128_S1600000x1_S1600000x128_1_0_0_1 x i u),
    nullary main_cst_8 (constant S_ .f32 0x3F800000#32),
    unary main_cst_8 main_v45 (broadcastInDim S1600000x1 ![] bcast_S_S1600000x1),
    unary main_arg16 main_v46 (extractStridedSlice S1x1600000 ![1, 0] · slices_S2x1600000_S1x1600000_1_0),
    reshape main_v46 main_v47 rfl shapeCasts_S1x1600000_S1600000,
    nullary main_cst_9 (constant S_ .f32 0x00000000#32) ]

abbrev ops1 : List (HloOp τ sig (Elt F)) :=
  [ unary main_cst_9 main_v48 (broadcastInDim S50000x1 ![] bcast_S_S50000x1),
    unary main_v47 main_v49 (broadcastInDim S1600000x1 ![0] bcast_S1600000_S1600000x1_0),
    ternary main_v48 main_v49 main_v45 main_v50 (fun x i u => Host.scatterAdd scatter_S50000x1_S1600000x1_S1600000x1_1_0_0_1 x i u),
    nullary main_cst_10 (constant S_ .f32 0x3F800000#32),
    unary main_cst_10 main_v51 (broadcastInDim S50000x1 ![] bcast_S_S50000x1),
    binary main_v50 main_v51 main_v52 maximumf,
    unary main_v52 main_v53 (broadcastInDim S50000x128 ![0, 1] bcast_S50000x1_S50000x128_0_1),
    binary main_v44 main_v53 main_v54 Host.divf,
    binary main_v54 main_arg2 main_v55 (fun l r => Host.dotGeneral dot_S50000x128_S128x128_S50000x128_1_0_0_1_n_n none l r),
    unary main_arg4 main_v56 (broadcastInDim S1x128 ![1] bcast_S128_S1x128_1),
    unary main_v56 main_v57 (broadcastInDim S50000x128 ![0, 1] bcast_S1x128_S50000x128_0_1),
    binary main_v55 main_v57 main_v58 addf,
    binary main_arg1 main_arg3 main_v59 (fun l r => Host.dotGeneral dot_S50000x128_S128x128_S50000x128_1_0_0_1_n_n none l r),
    binary main_v58 main_v59 main_v60 addf,
    nullary main_cst_11 (constant S_ .f32 0x3C23D70A#32),
    TRef.nullary main_call1.cst (constant S_ .f32 0x00000000#32),
    TRef.unary main_call1.cst main_call1.v0 (broadcastInDim S50000x128 ![] bcast_S_S50000x128),
    TRef.binary (TRef.of main_v60 : TRef sig ⟨S50000x128, .f32⟩) main_call1.v0 main_call1.v1 (cmpf .oge),
    TRef.unary (TRef.of main_cst_11 : TRef sig ⟨S_, .f32⟩) main_call1.v2 id,
    TRef.unary main_call1.v2 main_call1.v3 (broadcastInDim S50000x128 ![] bcast_S_S50000x128),
    TRef.binary main_call1.v3 (TRef.of main_v60 : TRef sig ⟨S50000x128, .f32⟩) main_call1.v4 mulf,
    TRef.ternary main_call1.v1 (TRef.of main_v60 : TRef sig ⟨S50000x128, .f32⟩) main_call1.v4 main_call1.call0.v0 select,
    unary main_arg17 main_v62 (extractStridedSlice S1x1600000 ![0, 0] · slices_S2x1600000_S1x1600000_0_0),
    reshape main_v62 main_v63 rfl shapeCasts_S1x1600000_S1600000,
    nullary main_c_12 (constantI S_ 32 0#32),
    unary main_c_12 main_v64 (broadcastInDim S1600000 ![] bcast_S_S1600000),
    binary main_v63 main_v64 main_v65 (cmpi .slt),
    nullary main_c_13 (constantI S_ 32 50000#32),
    unary main_c_13 main_v66 (broadcastInDim S1600000 ![] bcast_S_S1600000),
    binary main_v63 main_v66 main_v67 addi,
    ternary main_v65 main_v67 main_v63 main_v68 select,
    unary main_v68 main_v69 (broadcastInDim S1600000x1 ![0] bcast_S1600000_S1600000x1_0),
    binary main_v61 main_v69 main_v70 (fun x i => Host.gather gather_S50000x128_S1600000x1_S1600000x128_1_0_n_n_0_1_1128 x i),
    unary main_arg17 main_v71 (extractStridedSlice S1x1600000 ![1, 0] · slices_S2x1600000_S1x1600000_1_0),
    reshape main_v71 main_v72 rfl shapeCasts_S1x1600000_S1600000,
    nullary main_cst_14 (constant S_ .f32 0x00000000#32),
    unary main_cst_14 main_v73 (broadcastInDim S50000x128 ![] bcast_S_S50000x128),
    unary main_v72 main_v74 (broadcastInDim S1600000x1 ![0] bcast_S1600000_S1600000x1_0),
    ternary main_v73 main_v74 main_v70 main_v75 (fun x i u => Host.scatterAdd scatter_S50000x128_S1600000x1_S1600000x128_1_0_0_1 x i u),
    nullary main_cst_15 (constant S_ .f32 0x3F800000#32),
    unary main_cst_15 main_v76 (broadcastInDim S1600000x1 ![] bcast_S_S1600000x1),
    unary main_arg17 main_v77 (extractStridedSlice S1x1600000 ![1, 0] · slices_S2x1600000_S1x1600000_1_0),
    reshape main_v77 main_v78 rfl shapeCasts_S1x1600000_S1600000,
    nullary main_cst_16 (constant S_ .f32 0x00000000#32),
    unary main_cst_16 main_v79 (broadcastInDim S50000x1 ![] bcast_S_S50000x1),
    unary main_v78 main_v80 (broadcastInDim S1600000x1 ![0] bcast_S1600000_S1600000x1_0),
    ternary main_v79 main_v80 main_v76 main_v81 (fun x i u => Host.scatterAdd scatter_S50000x1_S1600000x1_S1600000x1_1_0_0_1 x i u),
    nullary main_cst_17 (constant S_ .f32 0x3F800000#32),
    unary main_cst_17 main_v82 (broadcastInDim S50000x1 ![] bcast_S_S50000x1),
    binary main_v81 main_v82 main_v83 maximumf,
    unary main_v83 main_v84 (broadcastInDim S50000x128 ![0, 1] bcast_S50000x1_S50000x128_0_1),
    binary main_v75 main_v84 main_v85 Host.divf,
    binary main_v85 main_arg11 main_v86 (fun l r => Host.dotGeneral dot_S50000x128_S128x128_S50000x128_1_0_0_1_n_n none l r),
    unary main_arg13 main_v87 (broadcastInDim S1x128 ![1] bcast_S128_S1x128_1),
    unary main_v87 main_v88 (broadcastInDim S50000x128 ![0, 1] bcast_S1x128_S50000x128_0_1),
    binary main_v86 main_v88 main_v89 addf,
    binary main_v30 main_arg12 main_v90 (fun l r => Host.dotGeneral dot_S50000x128_S128x128_S50000x128_1_0_0_1_n_n none l r),
    binary main_v89 main_v90 main_v91 addf,
    nullary main_cst_18 (constant S_ .f32 0x3C23D70A#32),
    TRef.nullary main_call2.cst (constant S_ .f32 0x00000000#32),
    TRef.unary main_call2.cst main_call2.v0 (broadcastInDim S50000x128 ![] bcast_S_S50000x128),
    TRef.binary (TRef.of main_v91 : TRef sig ⟨S50000x128, .f32⟩) main_call2.v0 main_call2.v1 (cmpf .oge),
    TRef.unary (TRef.of main_cst_18 : TRef sig ⟨S_, .f32⟩) main_call2.v2 id,
    TRef.unary main_call2.v2 main_call2.v3 (broadcastInDim S50000x128 ![] bcast_S_S50000x128),
    TRef.binary main_call2.v3 (TRef.of main_v91 : TRef sig ⟨S50000x128, .f32⟩) main_call2.v4 mulf,
    TRef.ternary main_call2.v1 (TRef.of main_v91 : TRef sig ⟨S50000x128, .f32⟩) main_call2.v4 main_call2.call0.v0 select,
    binary main_v92 main_arg14 main_v93 (fun l r => Host.dotGeneral dot_S50000x128_S128x64_S50000x64_1_0_0_1_n_n none l r),
    unary main_arg15 main_v94 (broadcastInDim S1x64 ![1] bcast_S64_S1x64_1),
    unary main_v94 main_v95 (broadcastInDim S50000x64 ![0, 1] bcast_S1x64_S50000x64_0_1),
    binary main_v93 main_v95 main_v96 addf ]

abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

theorem main_eq (c : Dev nD) : main (F := F) c = seq ops := by
  rw [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp ops0_sub op h, List.forall_iff_forall_mem.mp ops1_sub op h]

set_option maxRecDepth 8192 in
theorem ops0_fresh : ∀ op ∈ (ops0 : List (HloOp τ sig (Elt F))), op.fresh = ∅ := by
  intro _ h; (repeat (cases h with | head => rfl | tail _ h => ?_)); exact nomatch h

set_option maxRecDepth 8192 in
theorem ops1_fresh : ∀ op ∈ (ops1 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h
  exacts [ops0_fresh op h, ops1_fresh op h]

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

def row0 (e : (⟨S2x1600000, .i32⟩ : BufTy).Contents (Elt F)) : (⟨S1600000, .i32⟩ : BufTy).Contents (Elt F) :=
  shapeCast S1600000 (extractStridedSlice S1x1600000 ![0, 0] e slices_S2x1600000_S1x1600000_0_0) shapeCasts_S1x1600000_S1600000

def row1 (e : (⟨S2x1600000, .i32⟩ : BufTy).Contents (Elt F)) : (⟨S1600000, .i32⟩ : BufTy).Contents (Elt F) :=
  shapeCast S1600000 (extractStridedSlice S1x1600000 ![1, 0] e slices_S2x1600000_S1x1600000_1_0) shapeCasts_S1x1600000_S1600000

def srcCol (e : (⟨S2x1600000, .i32⟩ : BufTy).Contents (Elt F)) : (⟨S1600000x1, .i32⟩ : BufTy).Contents (Elt F) :=
  broadcastInDim S1600000x1 ![0] bcast_S1600000_S1600000x1_0
    (select (cmpi .slt (row0 e) (broadcastInDim S1600000 ![] bcast_S_S1600000 (constantI S_ 32 0#32)))
      (addi (row0 e) (broadcastInDim S1600000 ![] bcast_S_S1600000 (constantI S_ 32 50000#32)))
      (row0 e))

def dstCol (e : (⟨S2x1600000, .i32⟩ : BufTy).Contents (Elt F)) : (⟨S1600000x1, .i32⟩ : BufTy).Contents (Elt F) :=
  broadcastInDim S1600000x1 ![0] bcast_S1600000_S1600000x1_0 (row1 e)

def segSum (x : (⟨S50000x128, .f32⟩ : BufTy).Contents (Elt F)) (e : (⟨S2x1600000, .i32⟩ : BufTy).Contents (Elt F)) : (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (dstCol e)
    (Host.gather gather_S50000x128_S1600000x1_S1600000x128_1_0_n_n_0_1_1128 x (srcCol e))

def segCnt (e : (⟨S2x1600000, .i32⟩ : BufTy).Contents (Elt F)) : (⟨S50000x1, .f32⟩ : BufTy).Contents (Elt F) :=
  Host.scatterAdd scatter_S50000x1_S1600000x1_S1600000x1_1_0_0_1
    (broadcastInDim S50000x1 ![] bcast_S_S50000x1 (constant S_ .f32 0x00000000#32))
    (dstCol e)
    (broadcastInDim S1600000x1 ![] bcast_S_S1600000x1 (constant S_ .f32 0x3F800000#32))

def mean (x : (⟨S50000x128, .f32⟩ : BufTy).Contents (Elt F)) (e : (⟨S2x1600000, .i32⟩ : BufTy).Contents (Elt F)) : (⟨S50000x128, .f32⟩ : BufTy).Contents (Elt F) :=
  Host.divf (segSum x e)
    (broadcastInDim S50000x128 ![0, 1] bcast_S50000x1_S50000x128_0_1
      (maximumf (segCnt e) (broadcastInDim S50000x1 ![] bcast_S_S50000x1 (constant S_ .f32 0x3F800000#32))))

def leaky (y : (⟨S50000x128, .f32⟩ : BufTy).Contents (Elt F)) : (⟨S50000x128, .f32⟩ : BufTy).Contents (Elt F) :=
  select (cmpf .oge y (broadcastInDim S50000x128 ![] bcast_S_S50000x128 (constant S_ .f32 0x00000000#32))) y
    (mulf (broadcastInDim S50000x128 ![] bcast_S_S50000x128 (constant S_ .f32 0x3C23D70A#32)) y)

def layer (xs xd : (⟨S50000x128, .f32⟩ : BufTy).Contents (Elt F)) (e : (⟨S2x1600000, .i32⟩ : BufTy).Contents (Elt F)) (Wl Wr : (⟨S128x128, .f32⟩ : BufTy).Contents (Elt F)) (b : (⟨S128, .f32⟩ : BufTy).Contents (Elt F)) : (⟨S50000x128, .f32⟩ : BufTy).Contents (Elt F) :=
  leaky (addf
    (addf (Host.dotGeneral dot_S50000x128_S128x128_S50000x128_1_0_0_1_n_n none (mean xs e) Wl)
      (broadcastInDim S50000x128 ![0, 1] bcast_S1x128_S50000x128_0_1 (broadcastInDim S1x128 ![1] bcast_S128_S1x128_1 b)))
    (Host.dotGeneral dot_S50000x128_S128x128_S50000x128_1_0_0_1_n_n none xd Wr))

def head (h : (⟨S50000x128, .f32⟩ : BufTy).Contents (Elt F)) (Wo : (⟨S128x64, .f32⟩ : BufTy).Contents (Elt F)) (bo : (⟨S64, .f32⟩ : BufTy).Contents (Elt F)) : (⟨S50000x64, .f32⟩ : BufTy).Contents (Elt F) :=
  addf (Host.dotGeneral dot_S50000x128_S128x64_S50000x64_1_0_0_1_n_n none h Wo)
    (broadcastInDim S50000x64 ![0, 1] bcast_S1x64_S50000x64_0_1 (broadcastInDim S1x64 ![1] bcast_S64_S1x64_1 bo))

def res (m : (ℓ : Loc nD τ sig) → Buf (Elt F) ℓ) (c : Dev nD) : (⟨S50000x64, .f32⟩ : BufTy).Contents (Elt F) :=
  head
    (layer
      (layer (m ((c.tc : Thread nD τ).loc main_arg0)) (m ((c.tc : Thread nD τ).loc main_arg1)) (m ((c.tc : Thread nD τ).loc main_arg16))
        (m ((c.tc : Thread nD τ).loc main_arg2)) (m ((c.tc : Thread nD τ).loc main_arg3)) (m ((c.tc : Thread nD τ).loc main_arg4)))
      (layer (m ((c.tc : Thread nD τ).loc main_arg1)) (m ((c.tc : Thread nD τ).loc main_arg0)) (m ((c.tc : Thread nD τ).loc main_arg17))
        (m ((c.tc : Thread nD τ).loc main_arg5)) (m ((c.tc : Thread nD τ).loc main_arg6)) (m ((c.tc : Thread nD τ).loc main_arg7)))
      (m ((c.tc : Thread nD τ).loc main_arg17))
      (m ((c.tc : Thread nD τ).loc main_arg11)) (m ((c.tc : Thread nD τ).loc main_arg12)) (m ((c.tc : Thread nD τ).loc main_arg13)))
    (m ((c.tc : Thread nD τ).loc main_arg14)) (m ((c.tc : Thread nD τ).loc main_arg15))

abbrev ops0_W : List (Ref sig .tc) := [main_v0, main_v1, main_c, main_v2, main_v3, main_c_0, main_v4, main_v5, main_v6, main_v7, main_v8, main_v9, main_v10, main_cst, main_v11, main_v12, main_v13, main_cst_1, main_v14, main_v15, main_v16, main_cst_2, main_v17, main_v18, main_v19, main_cst_3, main_v20, main_v21, main_v22, main_v23, main_v24, main_v25, main_v26, main_v27, main_v28, main_v29, main_cst_4, main_call0_cst, main_call0_v0, main_call0_v1, main_call0_v2, main_call0_v3, main_call0_v4, main_v30, main_v31, main_v32, main_c_5, main_v33, main_v34, main_c_6, main_v35, main_v36, main_v37, main_v38, main_v39, main_v40, main_v41, main_cst_7, main_v42, main_v43, main_v44, main_cst_8, main_v45, main_v46, main_v47, main_cst_9]

abbrev ops1_W : List (Ref sig .tc) := [main_v48, main_v49, main_v50, main_cst_10, main_v51, main_v52, main_v53, main_v54, main_v55, main_v56, main_v57, main_v58, main_v59, main_v60, main_cst_11, main_call1_cst, main_call1_v0, main_call1_v1, main_call1_v2, main_call1_v3, main_call1_v4, main_v61, main_v62, main_v63, main_c_12, main_v64, main_v65, main_c_13, main_v66, main_v67, main_v68, main_v69, main_v70, main_v71, main_v72, main_cst_14, main_v73, main_v74, main_v75, main_cst_15, main_v76, main_v77, main_v78, main_cst_16, main_v79, main_v80, main_v81, main_cst_17, main_v82, main_v83, main_v84, main_v85, main_v86, main_v87, main_v88, main_v89, main_v90, main_v91, main_cst_18, main_call2_cst, main_call2_v0, main_call2_v1, main_call2_v2, main_call2_v3, main_call2_v4, main_v92, main_v93, main_v94, main_v95, main_v96]

-- An operation whose one written buffer is listed in W writes inside W.
theorem writes_sub_of_mem {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]
  exact List.mem_map_of_mem hy

set_option maxRecDepth 8192 in
theorem ops0_writes : (ops0 : List (HloOp τ sig (Elt F))).Forall fun op => op.writes ⊆ (ops0_W.map (Proc.devRef (τ := τ) .tc)).toFinset :=
  List.forall_iff_forall_mem.mpr fun _ h => by
    (repeat (cases h with | head => exact writes_sub_of_mem rfl (by decide) | tail _ h => ?_)); exact nomatch h

set_option maxRecDepth 8192 in
theorem ops1_writes : (ops1 : List (HloOp τ sig (Elt F))).Forall fun op => op.writes ⊆ (ops1_W.map (Proc.devRef (τ := τ) .tc)).toFinset :=
  List.forall_iff_forall_mem.mpr fun _ h => by
    (repeat (cases h with | head => exact writes_sub_of_mem rfl (by decide) | tail _ h => ?_)); exact nomatch h

theorem keep0 (V : Valuation τ sig (Elt F)) (r : Ref sig .tc) (h : r ∉ ops0_W) :
    after ops0 V (Proc.devRef .tc r) = V (Proc.devRef .tc r) :=
  after_of_writes_sub ops0 V ops0_writes h

theorem keep1 (V : Valuation τ sig (Elt F)) (r : Ref sig .tc) (h : r ∉ ops1_W) :
    after ops1 V (Proc.devRef .tc r) = V (Proc.devRef .tc r) :=
  after_of_writes_sub ops1 V ops1_writes h

theorem keep (V : Valuation τ sig (Elt F)) (r : Ref sig .tc) (h0 : r ∉ ops0_W) (h1 : r ∉ ops1_W) :
    after ops V (Proc.devRef .tc r) = V (Proc.devRef .tc r) := by
  rw [ops, after_append, keep1 _ r h1, keep0 V r h0]

set_option maxRecDepth 8192 in
set_option maxHeartbeats 4000000 in
theorem after0_v30 (V : Valuation τ sig (Elt F)) :
    after ops0 V (Proc.devRef .tc main_v30)
      = layer (V (Proc.devRef .tc main_arg1)) (V (Proc.devRef .tc main_arg0)) (V (Proc.devRef .tc main_arg17)) (V (Proc.devRef .tc main_arg5)) (V (Proc.devRef .tc main_arg6)) (V (Proc.devRef .tc main_arg7)) := by
  after_results_simp
  rfl

set_option maxRecDepth 8192 in
set_option maxHeartbeats 4000000 in
theorem after0_v44 (V : Valuation τ sig (Elt F)) :
    after ops0 V (Proc.devRef .tc main_v44) = segSum (V (Proc.devRef .tc main_arg0)) (V (Proc.devRef .tc main_arg16)) := by
  after_results_simp
  rfl

set_option maxRecDepth 8192 in
set_option maxHeartbeats 4000000 in
theorem after0_v45 (V : Valuation τ sig (Elt F)) :
    after ops0 V (Proc.devRef .tc main_v45) = broadcastInDim S1600000x1 ![] bcast_S_S1600000x1 (constant S_ .f32 0x3F800000#32) := by
  after_results_simp

set_option maxRecDepth 8192 in
set_option maxHeartbeats 4000000 in
theorem after0_v47 (V : Valuation τ sig (Elt F)) :
    after ops0 V (Proc.devRef .tc main_v47) = row1 (V (Proc.devRef .tc main_arg16)) := by
  after_results_simp
  rfl

set_option maxRecDepth 8192 in
set_option maxHeartbeats 4000000 in
theorem after0_cst_9 (V : Valuation τ sig (Elt F)) :
    after ops0 V (Proc.devRef .tc main_cst_9) = constant S_ .f32 0x00000000#32 := by
  after_results_simp

def dense (S : (⟨S50000x128, .f32⟩ : BufTy).Contents (Elt F)) (C : (⟨S50000x1, .f32⟩ : BufTy).Contents (Elt F)) (xd : (⟨S50000x128, .f32⟩ : BufTy).Contents (Elt F)) (Wl Wr : (⟨S128x128, .f32⟩ : BufTy).Contents (Elt F)) (b : (⟨S128, .f32⟩ : BufTy).Contents (Elt F)) : (⟨S50000x128, .f32⟩ : BufTy).Contents (Elt F) :=
  leaky (addf
    (addf (Host.dotGeneral dot_S50000x128_S128x128_S50000x128_1_0_0_1_n_n none
        (Host.divf S (broadcastInDim S50000x128 ![0, 1] bcast_S50000x1_S50000x128_0_1
          (maximumf C (broadcastInDim S50000x1 ![] bcast_S_S50000x1 (constant S_ .f32 0x3F800000#32))))) Wl)
      (broadcastInDim S50000x128 ![0, 1] bcast_S1x128_S50000x128_0_1 (broadcastInDim S1x128 ![1] bcast_S128_S1x128_1 b)))
    (Host.dotGeneral dot_S50000x128_S128x128_S50000x128_1_0_0_1_n_n none xd Wr))

theorem layer_eq_dense (xs xd : (⟨S50000x128, .f32⟩ : BufTy).Contents (Elt F)) (e : (⟨S2x1600000, .i32⟩ : BufTy).Contents (Elt F)) (Wl Wr : (⟨S128x128, .f32⟩ : BufTy).Contents (Elt F)) (b : (⟨S128, .f32⟩ : BufTy).Contents (Elt F)) :
    layer xs xd e Wl Wr b = dense (segSum xs e) (segCnt e) xd Wl Wr b := rfl

set_option maxRecDepth 8192 in
set_option maxHeartbeats 8000000 in
theorem after1_v96 (W : Valuation τ sig (Elt F)) :
    after ops1 W (Proc.devRef .tc main_v96)
      = head
          (layer
            (dense (W (Proc.devRef .tc main_v44))
              (Host.scatterAdd scatter_S50000x1_S1600000x1_S1600000x1_1_0_0_1
                (broadcastInDim S50000x1 ![] bcast_S_S50000x1 (W (Proc.devRef .tc main_cst_9)))
                (broadcastInDim S1600000x1 ![0] bcast_S1600000_S1600000x1_0 (W (Proc.devRef .tc main_v47)))
                (W (Proc.devRef .tc main_v45)))
              (W (Proc.devRef .tc main_arg1)) (W (Proc.devRef .tc main_arg2)) (W (Proc.devRef .tc main_arg3)) (W (Proc.devRef .tc main_arg4)))
            (W (Proc.devRef .tc main_v30)) (W (Proc.devRef .tc main_arg17)) (W (Proc.devRef .tc main_arg11)) (W (Proc.devRef .tc main_arg12)) (W (Proc.devRef .tc main_arg13)))
          (W (Proc.devRef .tc main_arg14)) (W (Proc.devRef .tc main_arg15)) := by
  after_results_simp
  rfl

theorem after_v96 (V : Valuation τ sig (Elt F)) :
    after ops V (Proc.devRef .tc main_v96)
      = head
          (layer
            (layer (V (Proc.devRef .tc main_arg0)) (V (Proc.devRef .tc main_arg1)) (V (Proc.devRef .tc main_arg16)) (V (Proc.devRef .tc main_arg2)) (V (Proc.devRef .tc main_arg3)) (V (Proc.devRef .tc main_arg4)))
            (layer (V (Proc.devRef .tc main_arg1)) (V (Proc.devRef .tc main_arg0)) (V (Proc.devRef .tc main_arg17)) (V (Proc.devRef .tc main_arg5)) (V (Proc.devRef .tc main_arg6)) (V (Proc.devRef .tc main_arg7)))
            (V (Proc.devRef .tc main_arg17)) (V (Proc.devRef .tc main_arg11)) (V (Proc.devRef .tc main_arg12)) (V (Proc.devRef .tc main_arg13)))
          (V (Proc.devRef .tc main_arg14)) (V (Proc.devRef .tc main_arg15)) := by
  rw [ops, after_append, after1_v96, after0_v44, after0_v45, after0_v47, after0_cst_9, after0_v30,
    keep0 V main_arg1 (by decide), keep0 V main_arg2 (by decide), keep0 V main_arg3 (by decide), keep0 V main_arg4 (by decide),
    keep0 V main_arg11 (by decide), keep0 V main_arg12 (by decide), keep0 V main_arg13 (by decide), keep0 V main_arg14 (by decide),
    keep0 V main_arg15 (by decide), keep0 V main_arg17 (by decide),
    layer_eq_dense (V (Proc.devRef .tc main_arg0))]
  rfl

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v96) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨(h c main_v96).trans (after_v96 (launchContents m c)),
      (h c main_arg0).trans (keep (launchContents m c) main_arg0 (by decide) (by decide)),
      (h c main_arg1).trans (keep (launchContents m c) main_arg1 (by decide) (by decide)),
      (h c main_arg2).trans (keep (launchContents m c) main_arg2 (by decide) (by decide)),
      (h c main_arg3).trans (keep (launchContents m c) main_arg3 (by decide) (by decide)),
      (h c main_arg4).trans (keep (launchContents m c) main_arg4 (by decide) (by decide)),
      (h c main_arg5).trans (keep (launchContents m c) main_arg5 (by decide) (by decide)),
      (h c main_arg6).trans (keep (launchContents m c) main_arg6 (by decide) (by decide)),
      (h c main_arg7).trans (keep (launchContents m c) main_arg7 (by decide) (by decide)),
      (h c main_arg8).trans (keep (launchContents m c) main_arg8 (by decide) (by decide)),
      (h c main_arg9).trans (keep (launchContents m c) main_arg9 (by decide) (by decide)),
      (h c main_arg10).trans (keep (launchContents m c) main_arg10 (by decide) (by decide)),
      (h c main_arg11).trans (keep (launchContents m c) main_arg11 (by decide) (by decide)),
      (h c main_arg12).trans (keep (launchContents m c) main_arg12 (by decide) (by decide)),
      (h c main_arg13).trans (keep (launchContents m c) main_arg13 (by decide) (by decide)),
      (h c main_arg14).trans (keep (launchContents m c) main_arg14 (by decide) (by decide)),
      (h c main_arg15).trans (keep (launchContents m c) main_arg15 (by decide) (by decide)),
      (h c main_arg16).trans (keep (launchContents m c) main_arg16 (by decide) (by decide)),
      (h c main_arg17).trans (keep (launchContents m c) main_arg17 (by decide) (by decide))⟩)
    (run_all m ρ)

end Cert.ReferenceIdeal.RefRun

end
-- ==== Proof.LibRowOps.lean ====
import Idealize.ShloMosaic.Lib.ValueIdx
import Idealize.ShloMosaic.Lib.ValueIdxRank1
import Idealize.ShloMosaic.PureOps.Ideal.Laws

noncomputable section

open scoped BigOperators

namespace Idealize.ShloMosaic.RowOps

open Idealize.ShloMosaic Idealize.ShloMosaic.ValueIdx

theorem hostScatterAdd_eq {s si u : Shape} {φ : FTy} {w : Nat} (d : ScatterDims s si u) (x : FVec Ideal s φ) (idx : IVec si w)
    (upd : FVec Ideal u φ) : Host.scatterAdd d x idx upd = Ideal.hostScatterAdd d x idx upd := rfl

theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h
    split at h
    · rename_i hh
      intro a
      have h1 := congrArg Fin.val (congrFun (Option.some.inj h) a)
      simp only at h1
      have := hh a
      omega
    · exact absurd h (by simp)
  · intro h
    have hh : ∀ a, 0 ≤ d.start j idx a + d.window j a ∧ d.start j idx a + d.window j a < s.size a := by
      intro a; have := h a; have := (i a).isLt; omega
    rw [dif_pos hh]
    congr 1; funext a; apply Fin.ext; simp only; have := h a; omega

abbrev rowsScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section
variable {N E W : Nat} (wf : ScatterDims.WF ⟨2, ![N, W]⟩ ⟨2, ![E, 1]⟩ ⟨2, ![E, W]⟩ [1] [0] [0] 1)

theorem rows_start_0 (idx : IVec ⟨2, ![E, 1]⟩ 32) (e : Fin E) (j : Fin W) :
    (rowsScatter N E W wf).start (ix2 e j) idx 0 = (idx (ix2 e 0)).toInt := by
  unfold ScatterDims.start
  rw [dif_pos (show (0 : Fin (⟨2, ![N, W]⟩ : Shape).rank) ∈ (rowsScatter N E W wf).scatterDimsToOperandDims from List.mem_singleton.mpr rfl)]
  congr 2
  funext b; refine Fin.ext ?_
  match b with
  | ⟨0, _⟩ => rfl
  | ⟨1, _⟩ => rfl

theorem rows_start_1 (idx : IVec ⟨2, ![E, 1]⟩ 32) (e : Fin E) (j : Fin W) :
    (rowsScatter N E W wf).start (ix2 e j) idx 1 = 0 := by
  unfold ScatterDims.start
  rw [dif_neg (show ¬ (1 : Fin (⟨2, ![N, W]⟩ : Shape).rank) ∈ (rowsScatter N E W wf).scatterDimsToOperandDims from
    fun h => absurd (List.mem_singleton.mp h) (show (1 : Fin 2) ≠ 0 by decide))]

theorem rows_window_0 (e : Fin E) (j : Fin W) : (rowsScatter N E W wf).window (ix2 e j) 0 = 0 := by
  unfold ScatterDims.window
  rw [dif_neg (by simp [ScatterDims.sKept, Shape.kept, List.mem_filter])]

theorem rows_window_1 (e : Fin E) (j : Fin W) : (rowsScatter N E W wf).window (ix2 e j) 1 = j.val := by
  unfold ScatterDims.window
  rw [dif_pos (by simp [ScatterDims.sKept, Shape.kept, List.mem_filter])]
  rfl

theorem rows_lands (idx : IVec ⟨2, ![E, 1]⟩ 32) (e : Fin E) (j' : Fin W) (i : Fin N) (j : Fin W) :
    (rowsScatter N E W wf).resultIdx? (ix2 e j') idx = some (ix2 i j) ↔ (idx (ix2 e 0)).toInt = (i.val : ℤ) ∧ j' = j := by
  rw [resultIdx?_eq_some_iff]
  constructor
  · intro h
    have h0 := h 0
    have h1 := h 1
    rw [rows_start_0, rows_window_0] at h0
    rw [rows_start_1, rows_window_1] at h1
    change (idx (ix2 e 0)).toInt + ((0 : ℕ) : ℤ) = (i.val : ℤ) at h0
    change (0 : ℤ) + ((j'.val : ℕ) : ℤ) = (j.val : ℤ) at h1
    have h0' : (idx (ix2 e 0)).toInt = (i.val : ℤ) := by simpa using h0
    have h1' : j'.val = j.val := by omega
    exact ⟨h0', Fin.ext h1'⟩
  · rintro ⟨h0, rfl⟩ a
    match a with
    | ⟨0, _⟩ =>
      show (rowsScatter N E W wf).start (ix2 e j') idx 0 + ((rowsScatter N E W wf).window (ix2 e j') 0 : ℤ) = _
      rw [rows_start_0, rows_window_0]
      show (idx (ix2 e 0)).toInt + ((0 : ℕ) : ℤ) = (i.val : ℤ)
      simpa using h0
    | ⟨1, _⟩ =>
      show (rowsScatter N E W wf).start (ix2 e j') idx 1 + ((rowsScatter N E W wf).window (ix2 e j') 1 : ℤ) = _
      rw [rows_start_1, rows_window_1]
      show (0 : ℤ) + ((j'.val : ℕ) : ℤ) = (j'.val : ℤ)
      simp

theorem rows_sum (idx : IVec ⟨2, ![E, 1]⟩ 32) (upd : (⟨2, ![E, W]⟩ : Shape).Idx → EReal) (i : Fin N) (j : Fin W) :
    ∑ u ∈ Finset.univ.filter (fun u => (rowsScatter N E W wf).resultIdx? u idx = some (ix2 i j)), upd u
      = ∑ e : Fin E, (if (idx (ix2 e 0)).toInt = (i.val : ℤ) then upd (ix2 e j) else 0) := by
  rw [Finset.sum_filter, sum_idx2]
  refine Finset.sum_congr rfl fun e _ => ?_
  simp only [rows_lands]
  by_cases h : (idx (ix2 e 0)).toInt = (i.val : ℤ)
  · simp only [h, true_and, if_true, Finset.sum_ite_eq', Finset.mem_univ]
  · simp only [h, false_and, if_false, Finset.sum_const_zero]

theorem scatterAdd_rows_apply (d : ScatterDims ⟨2, ![N, W]⟩ ⟨2, ![E, 1]⟩ ⟨2, ![E, W]⟩) (h1 : d.updateWindowDims = [1])
    (h2 : d.insertedWindowDims = [0]) (h3 : d.scatterDimsToOperandDims = [0]) (h4 : d.indexVectorDim = 1)
    (x : (⟨2, ![N, W]⟩ : Shape).Idx → EReal) (idx : IVec ⟨2, ![E, 1]⟩ 32) (upd : (⟨2, ![E, W]⟩ : Shape).Idx → EReal)
    (i : Fin N) (j : Fin W) :
    Ideal.hostScatterAdd d x idx upd (ix2 i j)
      = x (ix2 i j) + ∑ e : Fin E, (if (idx (ix2 e 0)).toInt = (i.val : ℤ) then upd (ix2 e j) else 0) := by
  obtain ⟨uw, iw, sd, iv, wf'⟩ := d
  dsimp only at h1 h2 h3 h4
  subst h1 h2 h3 h4
  unfold Ideal.hostScatterAdd
  rw [← rows_sum wf' idx upd i j]

end

def clampRow (N : Nat) (hN : 0 < N) (v : BitVec 32) : Fin N := ⟨min v.toInt.toNat (N - 1), by omega⟩

abbrev rowsGather (N E W : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

section
variable {N E W : Nat} (wf : GatherDims.WF ⟨2, ![N, W]⟩ ⟨2, ![E, 1]⟩ ⟨2, ![E, W]⟩ [1] [0] [] [0] [] 1 ![1, W])

theorem rows_operandIdx (hN : 0 < N) (idx : IVec ⟨2, ![E, 1]⟩ 32) (e : Fin E) (j : Fin W) :
    (rowsGather N E W wf).operandIdx (ix2 e j) idx = ix2 (clampRow N hN (idx (ix2 e 0))) j := by
  funext a
  refine Fin.ext ?_
  match a with
  | ⟨0, _⟩ =>
    show (rowsGather N E W wf).start (ix2 e j) idx 0 + (rowsGather N E W wf).batchCoord (ix2 e j) 0
      + (rowsGather N E W wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin (⟨2, ![N, W]⟩ : Shape).rank) ∈ (rowsGather N E W wf).startIndexMap from List.mem_singleton.mpr rfl)]
    have hsi : (rowsGather N E W wf).siIdx (ix2 e j) ⟨List.idxOf (0 : Fin (⟨2, ![N, W]⟩ : Shape).rank) (rowsGather N E W wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsGather N E W wf).start (ix2 e j) idx 1 + (rowsGather N E W wf).batchCoord (ix2 e j) 1
      + (rowsGather N E W wf).offCoord (ix2 e j) 1 = j.val
    rw [GatherDims.batchCoord_eq_zero _ _ _ List.not_mem_nil]
    unfold GatherDims.start
    rw [dif_neg (show ¬ (1 : Fin (⟨2, ![N, W]⟩ : Shape).rank) ∈ (rowsGather N E W wf).startIndexMap from
      fun h => absurd (List.mem_singleton.mp h) (show (1 : Fin 2) ≠ 0 by decide))]
    simp only [Nat.zero_add, Nat.add_zero]
    unfold GatherDims.offCoord
    rw [dif_pos ((GatherDims.mem_sKept _ _).mpr ⟨fun h => absurd (List.mem_singleton.mp h) (show (1 : Fin 2) ≠ 0 by decide),
      List.not_mem_nil⟩)]
    rfl

end

theorem gather_rows_apply {α : Type} {N E W : Nat} (hN : 0 < N) (d : GatherDims ⟨2, ![N, W]⟩ ⟨2, ![E, 1]⟩ ⟨2, ![E, W]⟩)
    (h : d.offsetDims = [1]) (h' : d.collapsedSliceDims = [0]) (hb : d.operandBatchingDims = [])
    (hb' : d.startIndicesBatchingDims = []) (hm : d.startIndexMap = [0]) (hv : d.indexVectorDim = 1)
    (hs : d.sliceSizes = ![1, W])
    (a : (⟨2, ![N, W]⟩ : Shape).Idx → α) (idx : IVec ⟨2, ![E, 1]⟩ 32) (e : Fin E) (j : Fin W) :
    Host.gather d a idx (ix2 e j) = a (ix2 (clampRow N hN (idx (ix2 e 0))) j) := by
  obtain ⟨od, cd, ob, sb, sm, iv, ss, wf'⟩ := d
  dsimp only at h h' hb hb' hm hv hs
  subst h h' hb hb' hm hv hs
  unfold Host.gather
  rw [← rows_operandIdx wf' hN idx e j]

end Idealize.ShloMosaic.RowOps

end
-- ==== Proof.RefRead.lean ====
import proofs.«420317_j38706245272172_4_alg».proof.Proof.Gen.ReferenceIdeal
import proofs.«420317_j38706245272172_4_alg».proof.Proof.Spec
import proofs.«420317_j38706245272172_4_alg».proof.Proof.LibRowOps
import proofs.«420317_j38706245272172_4_alg».proof.Proof.RefRun
import Idealize.ShloMosaic.Lib.ValueLayout
import Idealize.ShloMosaic.Lib.IdealHost
import Idealize.ShloMosaic.Lib.KernelVsHost
import Idealize.ShloMosaic.Lib.StackMember

noncomputable section

open scoped BigOperators

namespace Cert.ReferenceIdeal.RefRead

open Idealize.ShloMosaic Idealize.ShloMosaic.ValueIdx Cert.ReferenceIdeal Cert.ReferenceIdeal.Gen

variable {α : Type}

theorem slice_row0_apply (h : S2x1600000.Slices ![0, 0] S1x1600000) (x : S2x1600000.Idx → α) (u : Fin 1) (e : Fin 1600000) :
    extractStridedSlice S1x1600000 ![0, 0] x h (ix2 u e) = x (ix2 (0 : Fin 2) e) :=
  extractStridedSlice_apply ![0, 0] x h (ix2 u e) (ix2 (0 : Fin 2) e) (fun a => by
    match a with
    | ⟨0, _⟩ => show (0 : ℕ) = 0 + u.val; omega
    | ⟨1, _⟩ => show e.val = 0 + e.val; omega)

theorem slice_row1_apply (h : S2x1600000.Slices ![1, 0] S1x1600000) (x : S2x1600000.Idx → α) (u : Fin 1) (e : Fin 1600000) :
    extractStridedSlice S1x1600000 ![1, 0] x h (ix2 u e) = x (ix2 (1 : Fin 2) e) :=
  extractStridedSlice_apply ![1, 0] x h (ix2 u e) (ix2 (1 : Fin 2) e) (fun a => by
    match a with
    | ⟨0, _⟩ => show (1 : ℕ) = 1 + u.val; omega
    | ⟨1, _⟩ => show e.val = 0 + e.val; omega)

theorem bcast_col_apply {E : ℕ} (h : (⟨1, ![E]⟩ : Shape).BroadcastsInDim ⟨2, ![E, 1]⟩ ![0])
    (x : (⟨1, ![E]⟩ : Shape).Idx → α) (e : Fin E) (u : Fin 1) :
    broadcastInDim ⟨2, ![E, 1]⟩ ![0] h x (ix2 e u) = x (ix1 e) :=
  broadcastInDim_apply ![0] h x (ix2 e u) (ix1 e) (fun a => by
    match a with
    | ⟨0, _⟩ =>
      show e.val = if E = 1 then 0 else e.val
      split_ifs with hE
      · have := e.isLt; omega
      · rfl)

theorem bcast_lanes_apply {N W : ℕ} (h : (⟨2, ![N, 1]⟩ : Shape).BroadcastsInDim ⟨2, ![N, W]⟩ ![0, 1])
    (x : (⟨2, ![N, 1]⟩ : Shape).Idx → α) (r : Fin N) (j : Fin W) :
    broadcastInDim ⟨2, ![N, W]⟩ ![0, 1] h x (ix2 r j) = x (ix2 r (0 : Fin 1)) :=
  broadcastInDim_apply ![0, 1] h x (ix2 r j) (ix2 r (0 : Fin 1)) (fun a => by
    match a with
    | ⟨0, _⟩ =>
      show r.val = if N = 1 then 0 else r.val
      split_ifs with hN
      · have := r.isLt; omega
      · rfl
    | ⟨1, _⟩ =>
      show (0 : ℕ) = if (1 : ℕ) = 1 then 0 else j.val
      simp)

theorem bcast_row_apply {W : ℕ} (h : (⟨1, ![W]⟩ : Shape).BroadcastsInDim ⟨2, ![1, W]⟩ ![1])
    (x : (⟨1, ![W]⟩ : Shape).Idx → α) (u : Fin 1) (j : Fin W) :
    broadcastInDim ⟨2, ![1, W]⟩ ![1] h x (ix2 u j) = x (ix1 j) :=
  broadcastInDim_apply ![1] h x (ix2 u j) (ix1 j) (fun a => by
    match a with
    | ⟨0, _⟩ =>
      show j.val = if W = 1 then 0 else j.val
      split_ifs with hW
      · have := j.isLt; omega
      · rfl)

theorem wrap_select (s : BitVec 32) :
    Scalar.select (IntOp.cmpi .slt s 0#32) (IntOp.addi s 50000#32) s = Cert.Spec.wrap s := by
  unfold Scalar.select IntOp.cmpi IntOp.addi Cert.Spec.wrap
  by_cases h : s.toInt < 0
  · have hs : s.slt 0#32 = true := by simp [BitVec.slt, h]
    simp [hs, h]
  · have hs : s.slt 0#32 = false := by simp [BitVec.slt, h]
    simp [hs, h]

theorem row_eq_clampRow (s : BitVec 32) :
    Cert.Spec.row s = RowOps.clampRow 50000 (by norm_num) (Cert.Spec.wrap s) := Fin.ext rfl

theorem dot128_apply (A : FVec Ideal S50000x128 .f32) (B : FVec Ideal S128x128 .f32) (r : Fin 50000) (j : Fin 128) :
    Host.dotGeneral dot_S50000x128_S128x128_S50000x128_1_0_0_1_n_n none A B (ix2 r j) = ∑ k : Fin 128, A (ix2 r k) * B (ix2 k j) :=
  StackMember.dotGeneral_plain_apply (m := 50000) (n := 128) (k := 128) none A B r j

theorem dot64_apply (A : FVec Ideal S50000x128 .f32) (B : FVec Ideal S128x64 .f32) (r : Fin 50000) (o : Fin 64) :
    Host.dotGeneral dot_S50000x128_S128x64_S50000x64_1_0_0_1_n_n none A B (ix2 r o) = ∑ k : Fin 128, A (ix2 r k) * B (ix2 k o) :=
  StackMember.dotGeneral_plain_apply (m := 50000) (n := 64) (k := 128) none A B r o

theorem leaky_select (y : EReal) :
    Scalar.select (FloatOps.cmpf (F := Ideal) (φ := .f32) .oge y (Ideal.ofBits .f32 0x00000000#32))
        y (Ideal.ofBits .f32 0x3C23D70A#32 * y) = Cert.Spec.leaky y := by
  rw [Ideal.ofBits_zero_f32]
  unfold Scalar.select Cert.Spec.leaky Cert.Spec.slope
  rw [Ideal.cmpf_def]
  unfold Ideal.cmp
  by_cases h : (0 : EReal) ≤ y
  · simp [h]
  · simp [h]

section Layer

theorem row0_apply (e : IVec S2x1600000 32) (p : Fin 1600000) : RefRun.row0 (F := Ideal) e (ix1 p) = e (ix2 (0 : Fin 2) p) := by
  unfold RefRun.row0
  rw [shapeCast_1a_a_apply, slice_row0_apply]

theorem row1_apply (e : IVec S2x1600000 32) (p : Fin 1600000) : RefRun.row1 (F := Ideal) e (ix1 p) = e (ix2 (1 : Fin 2) p) := by
  unfold RefRun.row1
  rw [shapeCast_1a_a_apply, slice_row1_apply]

theorem srcCol_apply (e : IVec S2x1600000 32) (p : Fin 1600000) (u : Fin 1) :
    RefRun.srcCol (F := Ideal) e (ix2 p u) = Cert.Spec.wrap (e (ix2 (0 : Fin 2) p)) := by
  unfold RefRun.srcCol
  rw [bcast_col_apply, select_apply]
  show Scalar.select (IntOp.cmpi .slt (RefRun.row0 (F := Ideal) e (ix1 p)) 0#32)
      (IntOp.addi (RefRun.row0 (F := Ideal) e (ix1 p)) 50000#32) (RefRun.row0 (F := Ideal) e (ix1 p)) = _
  rw [wrap_select, row0_apply]

theorem dstCol_apply (e : IVec S2x1600000 32) (p : Fin 1600000) (u : Fin 1) :
    RefRun.dstCol (F := Ideal) e (ix2 p u) = e (ix2 (1 : Fin 2) p) := by
  unfold RefRun.dstCol
  rw [bcast_col_apply, row1_apply]

theorem segSum_apply (xs : FVec Ideal S50000x128 .f32) (e : IVec S2x1600000 32) (r : Fin 50000) (d : Fin 128) :
    RefRun.segSum (F := Ideal) xs e (ix2 r d)
      = Cert.Spec.segSum (fun p => e (ix2 (1 : Fin 2) p)) (fun p d => xs (ix2 (Cert.Spec.row (e (ix2 (0 : Fin 2) p))) d)) r d := by
  unfold RefRun.segSum
  rw [RowOps.hostScatterAdd_eq, RowOps.scatterAdd_rows_apply _ rfl rfl rfl rfl, broadcastInDim_scalar_apply, constant_apply,
    Ideal.ofBits_zero_f32, zero_add]
  unfold Cert.Spec.segSum
  refine Finset.sum_congr rfl fun p _ => ?_
  rw [dstCol_apply, RowOps.gather_rows_apply (by norm_num : 0 < 50000) _ rfl rfl rfl rfl rfl rfl rfl, srcCol_apply]
  simp only [row_eq_clampRow]

theorem segCnt_apply (e : IVec S2x1600000 32) (r : Fin 50000) (u : Fin 1) :
    RefRun.segCnt (F := Ideal) e (ix2 r u) = Cert.Spec.segCnt (fun p => e (ix2 (1 : Fin 2) p)) r := by
  unfold RefRun.segCnt
  rw [RowOps.hostScatterAdd_eq, RowOps.scatterAdd_rows_apply _ rfl rfl rfl rfl, broadcastInDim_scalar_apply, constant_apply,
    Ideal.ofBits_zero_f32, zero_add]
  unfold Cert.Spec.segCnt
  refine Finset.sum_congr rfl fun p _ => ?_
  rw [dstCol_apply, broadcastInDim_scalar_apply, constant_apply, Ideal.ofBits_one_f32]

theorem mean_apply (xs : FVec Ideal S50000x128 .f32) (e : IVec S2x1600000 32) (r : Fin 50000) (k : Fin 128) :
    RefRun.mean (F := Ideal) xs e (ix2 r k)
      = Cert.Spec.mean (fun p => e (ix2 (0 : Fin 2) p)) (fun p => e (ix2 (1 : Fin 2) p)) (fun r d => xs (ix2 r d)) r k := by
  unfold RefRun.mean
  rw [hostDivf_apply, segSum_apply, bcast_lanes_apply, maximumf_apply, segCnt_apply, broadcastInDim_scalar_apply, constant_apply,
    Ideal.ofBits_one_f32]
  rfl

theorem leaky_apply (y : FVec Ideal S50000x128 .f32) (i : S50000x128.Idx) :
    RefRun.leaky (F := Ideal) y i = Cert.Spec.leaky (y i) := by
  unfold RefRun.leaky
  rw [select_apply, cmpf_apply, mulf_apply, broadcastInDim_scalar_apply, broadcastInDim_scalar_apply]
  exact leaky_select (y i)

theorem layer_apply (xs xd : FVec Ideal S50000x128 .f32) (e : IVec S2x1600000 32) (Wl Wr : FVec Ideal S128x128 .f32)
    (b : FVec Ideal S128 .f32) (r : Fin 50000) (j : Fin 128) :
    RefRun.layer (F := Ideal) xs xd e Wl Wr b (ix2 r j)
      = Cert.Spec.sage (fun r d => xs (ix2 r d)) (fun r d => xd (ix2 r d)) (fun p => e (ix2 (0 : Fin 2) p)) (fun p => e (ix2 (1 : Fin 2) p))
          (fun k j => Wl (ix2 k j)) (fun k j => Wr (ix2 k j)) (fun j => b (ix1 j)) r j := by
  unfold RefRun.layer
  rw [leaky_apply, addf_apply, addf_apply, dot128_apply, dot128_apply, broadcastInDim_oneRow_apply, bcast_row_apply]
  simp only [mean_apply]
  rfl

theorem head_apply (h : FVec Ideal S50000x128 .f32) (Wo : FVec Ideal S128x64 .f32) (bo : FVec Ideal S64 .f32) (r : Fin 50000) (o : Fin 64) :
    RefRun.head (F := Ideal) h Wo bo (ix2 r o) = (∑ k : Fin 128, h (ix2 r k) * Wo (ix2 k o)) + bo (ix1 o) := by
  unfold RefRun.head
  rw [addf_apply, dot64_apply, broadcastInDim_oneRow_apply, bcast_row_apply]

end Layer

end Cert.ReferenceIdeal.RefRead

end
-- ==== Proof.RefResult.lean ====
import proofs.«420317_j38706245272172_4_alg».proof.Proof.Spec
import proofs.«420317_j38706245272172_4_alg».proof.Proof.RefRun
import proofs.«420317_j38706245272172_4_alg».proof.Proof.RefRead

noncomputable section

open scoped BigOperators

namespace Cert.ReferenceIdeal.RefResult

open Cert.ReferenceIdeal Cert.ReferenceIdeal.Gen Idealize.ShloMosaic Idealize.ShloMosaic.ValueIdx Idealize.SL.Sem

-- The reference's result at (r, o) is the network of its arguments: the head over three layers, each read at an index.
theorem result (m : (ℓ : Loc nD τ sig) → Buf (Elt Ideal) ℓ) (c : Dev nD) (r : Fin 50000) (o : Fin 64) :
    (RefRun.res (F := Ideal) m c : S50000x64.Idx → EReal) (ix2 r o)
      = Cert.Spec.out
          (fun r d => (m ((c.tc : Thread nD τ).loc main_arg0) : S50000x128.Idx → EReal) (ix2 r d))
          (fun r d => (m ((c.tc : Thread nD τ).loc main_arg1) : S50000x128.Idx → EReal) (ix2 r d))
          (fun k j => (m ((c.tc : Thread nD τ).loc main_arg2) : S128x128.Idx → EReal) (ix2 k j))
          (fun k j => (m ((c.tc : Thread nD τ).loc main_arg3) : S128x128.Idx → EReal) (ix2 k j))
          (fun j => (m ((c.tc : Thread nD τ).loc main_arg4) : S128.Idx → EReal) (ix1 j))
          (fun k j => (m ((c.tc : Thread nD τ).loc main_arg5) : S128x128.Idx → EReal) (ix2 k j))
          (fun k j => (m ((c.tc : Thread nD τ).loc main_arg6) : S128x128.Idx → EReal) (ix2 k j))
          (fun j => (m ((c.tc : Thread nD τ).loc main_arg7) : S128.Idx → EReal) (ix1 j))
          (fun k j => (m ((c.tc : Thread nD τ).loc main_arg11) : S128x128.Idx → EReal) (ix2 k j))
          (fun k j => (m ((c.tc : Thread nD τ).loc main_arg12) : S128x128.Idx → EReal) (ix2 k j))
          (fun j => (m ((c.tc : Thread nD τ).loc main_arg13) : S128.Idx → EReal) (ix1 j))
          (fun k o => (m ((c.tc : Thread nD τ).loc main_arg14) : S128x64.Idx → EReal) (ix2 k o))
          (fun o => (m ((c.tc : Thread nD τ).loc main_arg15) : S64.Idx → EReal) (ix1 o))
          (fun a e => (m ((c.tc : Thread nD τ).loc main_arg16) : S2x1600000.Idx → BitVec 32) (ix2 a e))
          (fun a e => (m ((c.tc : Thread nD τ).loc main_arg17) : S2x1600000.Idx → BitVec 32) (ix2 a e))
          r o := by
  unfold RefRun.res
  rw [RefRead.head_apply]
  simp only [RefRead.layer_apply]
  rfl

end Cert.ReferenceIdeal.RefResult

end
-- ==== Proof.LibOneHot.lean ====
import Idealize.ShloMosaic.Lib.ValueIdx
import Idealize.ShloMosaic.PureOps.Ideal.Laws

namespace Cert.LibOneHot

open Idealize.ShloMosaic

theorem cmpi_at {s : Shape} {w : ℕ} (q : CmpIPredicate) (x y : IVec s w) (j : s.Idx) :
    cmpi q x y j = IntOp.cmpi q (x j) (y j) := rfl

theorem addi_at {s : Shape} {w : ℕ} (x y : IVec s w) (j : s.Idx) : addi x y j = IntOp.addi (x j) (y j) := rfl

theorem row_word (a b : ℕ) : IntOp.addi (BitVec.ofNat 32 a) (BitVec.ofNat 32 b) = BitVec.ofNat 32 (a + b) :=
  (BitVec.ofNat_add _ _).symm

/-- Two words compared for equality, widened and converted: 1 where they agree, 0 elsewhere. -/
theorem onehot_word (a b : BitVec 32) :
    (FloatOps.sitofp .f32 ((IntOp.cmpi .eq a b).setWidth 32) : Ideal .f32) = if a = b then (1 : EReal) else 0 := by
  by_cases h : a = b
  · have hc : IntOp.cmpi .eq a b = 1#1 := by simp [IntOp.cmpi, h]
    rw [if_pos h, hc]
    show ((((1#1 : BitVec 1).setWidth 32).toInt : ℝ) : EReal) = 1
    norm_num
  · have hb : (a == b) = false := by simpa using h
    have hc : IntOp.cmpi .eq a b = 0#1 := by simp [IntOp.cmpi, hb]
    rw [if_neg h, hc]
    show ((((0#1 : BitVec 1).setWidth 32).toInt : ℝ) : EReal) = 0
    norm_num

end Cert.LibOneHot
-- ==== Proof.Cnt.lean ====
import proofs.«420317_j38706245272172_4_alg».proof.Proof.Gen.KernelIdeal.Frame
import proofs.«420317_j38706245272172_4_alg».proof.Proof.Spec
import proofs.«420317_j38706245272172_4_alg».proof.Proof.LibOneHot
import Idealize.ShloMosaic.Lib.ValueLayout
import Idealize.ShloMosaic.Lib.WritesUnit

noncomputable section

open scoped BigOperators

namespace Cert.KernelIdeal.Cnt

open Idealize.ShloMosaic Idealize.ShloMosaic.ValueIdx Idealize.SL.Sem
open Cert.KernelIdeal Cert.KernelIdeal.Gen Cert.Spec Cert.LibOneHot

section Layout
variable {α : Type}

-- Every lane of a row of the spread column is the row's entry.
theorem bcast_col {b : ℕ} (v : S1000x1.Idx → α) (h : S1000x1.Broadcasts ⟨2, ![1000, b]⟩) (p : Fin 1000) (l : Fin b) :
    broadcastTo ⟨2, ![1000, b]⟩ v h (ix2 p l) = v (ix2 p 0) :=
  broadcastTo_apply v h (ix2 p l) (ix2 p 0) fun a => match a with | ⟨0, _⟩ => rfl | ⟨1, _⟩ => rfl

theorem cast_col (v : S1000.Idx → α) (h : S1000.ShapeCasts S1000x1) (p : Fin 1000) :
    shapeCast S1000x1 v h (ix2 p 0) = v (ix1 p) :=
  shapeCast_apply v h (ix2 p 0) (ix1 p) (by
    rw [Shape.rowMajor_val_one, Shape.rowMajor_val_two]
    show p.val = p.val * 1 + 0
    omega)

end Layout

theorem sum_cols (src : FVec Ideal S1000x2048 .f32) (acc : BitVec 32) (h : S1000x2048.Reduces [1] S1000)
    (hφ : FKind.Formats .f32) (hacc : acc = FKind.add.neutral .f32 hφ) (p : Fin 1000) :
    multiReduction .add [1] S1000 src acc h hφ hacc (ix1 p) = ∑ e : Fin 2048, src (ix2 p e) :=
  (Ideal.multiReduction_add_single src acc h hφ hacc (ix1 p)).trans
    (Finset.sum_congr rfl fun e _ => congrArg src (funext fun a => match a with | ⟨0, _⟩ => rfl | ⟨1, _⟩ => rfl))

theorem trips_eq : k0_t1_loop.trips = 50 := by decide

theorem tile_word : ∀ k : Fin k0_t1_loop.trips,
    Scalar.muli (Scalar.addi 0#32 (Scalar.muli (Scf.iv 0#32 1#32 k) 1#32)) 1000#32 = BitVec.ofNat 32 (1000 * k.val) := by
  decide +kernel

-- Row p of tile k is row r = 1000 k + p of the table: it gains the number of the chunk's words equal to r.
theorem pay_apply (v3 : Vec Ideal S2048 .i32) (k : Fin k0_t1_loop.trips) (v24 : Vec Ideal S1x1000x128 .f32)
    (p : Fin 1000) (l : Fin 128) (r : Fin 50000) (hr : r.val = 1000 * k.val + p.val) :
    k0_pay2 (F := Ideal) v3 k v24 (ix3 0 p l) = v24 (ix3 0 p l) + chunkCnt (fun e => v3 (ix1 e)) r := by
  unfold k0_pay2
  dsimp only
  rw [shapeCast_ab_1ab_apply, addf_apply, shapeCast_1ab_ab_apply, bcast_col, shapeCast_self, cast_col]
  refine congrArg (_ + ·) ((sum_cols _ _ _ _ _ p).trans (Finset.sum_congr rfl fun e _ =>
    (onehot_word _ _).trans (if_congr (Eq.congr ?_ ?_) rfl rfl)))
  · exact (broadcastTo_1b_ab_apply _ _ p e).trans ((shapeCast_a_1a_apply _ _ 0 e).trans (congrFun (shapeCast_self _ _) (ix1 e)))
  · refine (bcast_col _ _ p e).trans ?_
    show IntOp.addi _ (iota .tc S1000x1 32 [0] iota_S1000x1_d0_w32 (ix2 p 0)) = _
    rw [iota_single_apply, tile_word k, hr]
    exact row_word _ _

section Walk

variable (arg3 : Memref sig .tc .vmem S1x50000x128 .f32) (v3 : Vec Ideal S2048 .i32)
  (G : BufTy.Contents (Elt Ideal) arg3.view.ty) (pb : ℕ → List (View.Piece (Elt Ideal) S1x50000x128 .f32))

abbrev tile (k : Fin k0_t1_loop.trips) : Rect S1x50000x128 := Rect.unit (k0_off1 k) S1x1000x128.size (k0_off1_inb k)

theorem emb_tile (k : Fin k0_t1_loop.trips) (p : Fin 1000) (l : Fin 128) (r : Fin 50000) (hr : r.val = 1000 * k.val + p.val) :
    (tile k).emb (ix3 0 p l) = ix3 0 r l :=
  funext fun a => Fin.ext (by
    show k0_off1 k a + 1 * (ix3 0 p l a).val = (ix3 0 r l a).val
    rw [k0_off1_eq k, Nat.one_mul]
    match a with
    | ⟨0, _⟩ => rfl
    | ⟨1, _⟩ => exact hr.symm
    | ⟨2, _⟩ => exact Nat.zero_add _)

-- The stores of the first n tiles, newest first: tile k stores the payload of what it loads over the earlier tiles' stores.
def Steps : Prop :=
  pb 0 = [] ∧ ∀ k : Fin k0_t1_loop.trips, pb (k.val + 1)
    = ⟨tile k, k0_pay2 (F := Ideal) v3 k (arg3.view.readAt (Elt Ideal) (tile k).toLoadRect
        (arg3.view.writes (Elt Ideal) G (pb k.val)))⟩ :: pb k.val

-- Each row lies in one tile, so after n tiles the rows below 1000 n have gained their count and the others are as they were.
theorem walk (h : Steps arg3 v3 G pb) (r : Fin 50000) (l : Fin 128) :
    ∀ n : ℕ, n ≤ 50 → arg3.view.read (Elt Ideal) (arg3.view.writes (Elt Ideal) G (pb n)) (ix3 0 r l)
      = if r.val < 1000 * n then arg3.view.read (Elt Ideal) G (ix3 0 r l) + chunkCnt (fun e => v3 (ix1 e)) r
        else arg3.view.read (Elt Ideal) G (ix3 0 r l)
  | 0, _ => by rw [h.1, if_neg (Nat.not_lt_zero _)]; rfl
  | n + 1, hn => by
    have ih := walk h r l n (Nat.le_of_succ_le hn)
    have hk : n < k0_t1_loop.trips := by rw [trips_eq]; omega
    rw [h.2 ⟨n, hk⟩]
    by_cases hin : 1000 * n ≤ r.val ∧ r.val < 1000 * n + 1000
    · obtain ⟨p, hp⟩ : ∃ p : Fin 1000, r.val = 1000 * n + p.val := ⟨⟨r.val - 1000 * n, by omega⟩, by simp only; omega⟩
      have he := emb_tile ⟨n, hk⟩ p l r hp
      rw [if_pos (by omega), ← he, View.read_writes_cons_emb, pay_apply v3 _ _ p l r hp]
      refine congrArg (· + _) ?_
      show arg3.view.read (Elt Ideal) (arg3.view.writes (Elt Ideal) G (pb n)) ((tile ⟨n, hk⟩).emb (ix3 0 p l)) = _
      rw [he, ih, if_neg (by omega)]
    · rw [View.read_writes_cons_unit_of_not_mem _ _ _ _ _ _ (k0_off1_eq _) 1
        (by show r.val < 1000 * n ∨ 1000 * n + 1000 ≤ r.val; omega), ih]
      exact if_congr (by omega) rfl rfl

theorem walk_all (h : Steps arg3 v3 G pb) (r : Fin 50000) (l : Fin 128) :
    arg3.view.read (Elt Ideal) (arg3.view.writes (Elt Ideal) G (pb 50)) (ix3 0 r l)
      = arg3.view.read (Elt Ideal) G (ix3 0 r l) + chunkCnt (fun e => v3 (ix1 e)) r :=
  (walk arg3 v3 G pb h r l 50 (Nat.le_refl 50)).trans (if_pos (by have := r.isLt; omega))

end Walk

section Body

variable {arg2 : Memref sig .tc .vmem S2048 .i32} (harg2 : arg2.IsWhole)
  {arg3 : Memref sig .tc .vmem S1x50000x128 .f32} (harg3 : arg3.IsWhole) (v3 : Vec Ideal S2048 .i32)
  (pb : BufTy.Contents (Elt Ideal) arg3.view.ty → ℕ → List (View.Piece (Elt Ideal) S1x50000x128 .f32))
  (hpb : ∀ G, Steps arg3 v3 G (pb G))
  (VO : View sig .tc .vmem S1x50000x128 .f32) {L : List (View.Piece (Elt Ideal) S1x50000x128 .f32)}
  (hcov : ∀ y : S1x50000x128.Idx, ∃ pc ∈ L, y ∈ pc.1.set)

abbrev zeroPiece : View.Piece (Elt Ideal) S1x50000x128 .f32 :=
  ⟨Rect.unit ![0, 0, 0] S1x50000x128.size inb_S1x50000x128_S1x50000x128_0_0_0, k0_pay1 (F := Ideal)⟩

theorem zero_read (y : S1x50000x128.Idx) :
    arg3.view.read (Elt Ideal) (arg3.view.writes (Elt Ideal) arg3.view.junk [zeroPiece]) y = 0 :=
  (View.read_writes_cons_unit_of_mem _ _ _ _ [] y y rfl fun a => match a with
    | ⟨0, _⟩ => (Nat.zero_add _).symm | ⟨1, _⟩ => (Nat.zero_add _).symm | ⟨2, _⟩ => (Nat.zero_add _).symm).trans
    (show Ideal.ofBits .f32 0x00000000#32 = 0 from Ideal.ofBits_zero_f32)

theorem load_chunk (x0 : Vec Ideal S2048 .i32) :
    View.readAt (Elt Ideal) arg2.view (Rect.unit ![0] ![2048] inb_S2048_S2048_0).toLoadRect (harg2.unread x0) = x0 := by
  rw [View.readAt_eq_ld, harg2.read_unread]
  exact View.ld_unit_zero (S := S2048) (funext fun a => match a with | ⟨0, _⟩ => rfl) inb_S2048_S2048_0 x0

include hpb hcov

-- A point that adds: the tiles' stores over the running table.
theorem outB_of (xo1 : Vec Ideal S1x50000x128 .f32) (hL : L = pb (harg3.unread xo1) 50) (r : Fin 50000) (l : Fin 128) :
    VO.read (Elt Ideal) (VO.writes (Elt Ideal) VO.junk L) (ix3 0 r l) = xo1 (ix3 0 r l) + chunkCnt (fun e => v3 (ix1 e)) r := by
  rw [View.read_writes_of_cover VO VO.junk arg3.view (harg3.unread xo1) L hcov, hL, walk_all arg3 v3 _ _ (hpb _),
    harg3.read_unread]

-- A half's first point: the zeroing store, then the tiles' stores over the zeroed table.
theorem outA_of (hL : L = pb (arg3.view.writes (Elt Ideal) arg3.view.junk [zeroPiece]) 50 ++ [zeroPiece])
    (r : Fin 50000) (l : Fin 128) :
    VO.read (Elt Ideal) (VO.writes (Elt Ideal) VO.junk L) (ix3 0 r l) = 0 + chunkCnt (fun e => v3 (ix1 e)) r := by
  rw [View.read_writes_of_cover VO VO.junk arg3.view arg3.view.junk L hcov, hL, View.writes_append,
    walk_all arg3 v3 _ _ (hpb _), zero_read]

end Body

theorem index_in : ∀ t : Fin grid0.N, cc0_transform_0 (grid0.coords t) 0 = t.val := by decide +kernel

theorem index_out : ∀ t : Fin grid0.N, cc0_transform_1 (grid0.coords t) 0 = t.val / 391
    ∧ cc0_transform_1 (grid0.coords t) 1 = 0 ∧ cc0_transform_1 (grid0.coords t) 2 = 0 := by
  decide +kernel

-- The padded target array by a natural position (zero past the end).
def fdN (fd : Fin 1601536 → BitVec 32) (p : ℕ) : BitVec 32 := if hp : p < 1601536 then fd ⟨p, hp⟩ else 0#32

-- A block of 2048 words at block index t starts at word 2048 t of the array.
theorem iblk_of (t : Fin grid0.N) (f : S2048.Idx → S1601536.Idx)
    (hf : ∀ y a, (f y a).val = cc0_transform_0 (grid0.coords t) a * S2048.size a + 1 * (y a).val)
    (A : S1601536.Idx → BitVec 32) (e : Fin 2048) :
    A (f (ix1 e)) = fdN (fun p => A (ix1 p)) (t.val * 2048 + e.val) := by
  have hp : t.val * 2048 + e.val < 1601536 := by have := e.isLt; have := lt_of_lt_of_eq t.isLt N_0; omega
  rw [fdN, dif_pos hp]
  refine congrArg A (funext fun a => Fin.ext ?_)
  rw [hf]
  match a with
  | ⟨0, _⟩ =>
    show cc0_transform_0 (grid0.coords t) 0 * 2048 + 1 * e.val = t.val * 2048 + e.val
    rw [index_in t, Nat.one_mul]

-- Element (0, r, l) of the table at point t is element (t / 391, r, l) of the array.
theorem emb_of (t : Fin grid0.N) (f : S1x50000x128.Idx → S2x50000x128.Idx)
    (hf : ∀ y a, (f y a).val = cc0_transform_1 (grid0.coords t) a * S1x50000x128.size a + 1 * (y a).val)
    (r : Fin 50000) (l : Fin 128) (h : Fin 2) (hh : t.val / 391 = h.val) : f (ix3 0 r l) = ix3 h r l := by
  obtain ⟨hi0, hi1, hi2⟩ := index_out t
  funext a
  apply Fin.ext
  rw [hf]
  match a with
  | ⟨0, _⟩ => show cc0_transform_1 (grid0.coords t) 0 * 1 + 1 * 0 = h.val; rw [hi0]; omega
  | ⟨1, _⟩ => show cc0_transform_1 (grid0.coords t) 1 * 50000 + 1 * r.val = r.val; rw [hi1]; omega
  | ⟨2, _⟩ => show cc0_transform_1 (grid0.coords t) 2 * 128 + 1 * l.val = l.val; rw [hi2]; omega

-- Row r of half h holds the half's count in every lane.
def G (fd : Fin 1601536 → BitVec 32) : Vec Ideal S2x50000x128 .f32 := fun i => cntHalf fd (i 0) (i 1)

-- A table zeroed at the first of a half's 391 points and gaining every point's chunk count holds the half's count at its last.
theorem half_run {N : ℕ} (fd : Fin 1601536 → BitVec 32) (x : (n : ℕ) → n < N → Vec Ideal S2048 .i32)
    (outs : (n : ℕ) → n < N → Vec Ideal S1x50000x128 .f32)
    (hx : ∀ n h (e : Fin 2048), x n h (ix1 e) = fdN fd (n * 2048 + e.val))
    (hA : ∀ n h, n % 391 = 0 → ∀ r l, outs n h (ix3 0 r l) = 0 + chunkCnt (fun e => x n h (ix1 e)) r)
    (hB : ∀ n (h : n + 1 < N), ¬(n + 1) % 391 = 0 → ∀ r l, outs (n + 1) h (ix3 0 r l)
      = outs n (Nat.lt_of_succ_lt h) (ix3 0 r l) + chunkCnt (fun e => x (n + 1) h (ix1 e)) r)
    (t : ℕ) (ht : t < N) (h390 : t % 391 = 390) (hq : t / 391 < 2) (r : Fin 50000) (l : Fin 128) :
    outs t ht (ix3 0 r l) = cntHalf fd ⟨t / 391, hq⟩ r := by
  have h' : 391 * (t / 391) + t % 391 < N := by omega
  refine (congrFun (Pipeline.eq_accAt_of_mod (fun n h (i : Fin 50000 × Fin 128) => outs n h (ix3 0 i.1 i.2)) 391
    (fun n h i => 0 + chunkCnt (fun e => x n h (ix1 e)) i.1) (fun n h acc i => acc i + chunkCnt (fun e => x n h (ix1 e)) i.1)
    (fun n h hn => funext fun i => hA n h hn i.1 i.2) (fun n h hn => funext fun i => hB n h hn i.1 i.2)
    (by decide) t ht h') (r, l)).trans ?_
  refine (Pipeline.accAt_add_apply _ _ (fun _ => 0) (fun n i => chunkCnt (fun e => fdN fd (n * 2048 + e.val)) i.1)
    _ 390 (fun h i => congrArg (0 + chunkCnt · i.1) (funext (hx _ h)))
    (fun n h acc i _ _ => congrArg (acc i + chunkCnt · i.1) (funext (hx n h))) _ (by omega) h' (r, l)).trans ?_
  rw [h390, zero_add, Finset.sum_range]
  refine Finset.sum_congr rfl fun k _ => congrArg (chunkCnt · r) (funext fun e => ?_)
  have hk := k.isLt
  have he := e.isLt
  exact (dif_pos (show (391 * (t / 391) + k.val) * 2048 + e.val < 1601536 by omega)).trans
    (congrArg fd (Fin.ext (show (391 * (t / 391) + k.val) * 2048 + e.val = (t / 391 * 391 + k.val) * 2048 + e.val by omega)))

-- At a half's last point the table, read through the block's placement in the array, is that half's block of the counts.
theorem flushed_of (A : S1601536.Idx → BitVec 32) (f0 : (n : ℕ) → n < grid0.N → S2048.Idx → S1601536.Idx)
    (hf0 : ∀ n h y a, (f0 n h y a).val = cc0_transform_0 (grid0.coords ⟨n, h⟩) a * S2048.size a + 1 * (y a).val)
    (outs : (n : ℕ) → n < grid0.N → Vec Ideal S1x50000x128 .f32)
    (hA : ∀ n h, n % 391 = 0 → ∀ r l, outs n h (ix3 0 r l) = 0 + chunkCnt (fun e => A (f0 n h (ix1 e))) r)
    (hB : ∀ n (h : n + 1 < grid0.N), ¬(n + 1) % 391 = 0 → ∀ r l, outs (n + 1) h (ix3 0 r l)
      = outs n (Nat.lt_of_succ_lt h) (ix3 0 r l) + chunkCnt (fun e => A (f0 (n + 1) h (ix1 e))) r)
    (t : Fin grid0.N) (h390 : t.val % 391 = 390) (f1 : S1x50000x128.Idx → S2x50000x128.Idx)
    (hf1 : ∀ y a, (f1 y a).val = cc0_transform_1 (grid0.coords t) a * S1x50000x128.size a + 1 * (y a).val)
    (κ : S1x50000x128.Idx → S1x50000x128.Idx) (hκ : ∀ r l, κ (ix3 0 r l) = ix3 0 r l) :
    (fun y => outs t.val t.isLt (κ y)) = fun y => G (fun p => A (ix1 p)) (f1 y) := by
  have hq : t.val / 391 < 2 := by have := lt_of_lt_of_eq t.isLt N_0; omega
  funext y
  obtain ⟨a, r, l, rfl⟩ : ∃ a r l, y = ix3 a r l := ⟨y 0, y 1, y 2, eq_ix3 y⟩
  obtain rfl : a = 0 := Subsingleton.elim _ _
  rw [hκ, emb_of t f1 hf1 r l ⟨t.val / 391, hq⟩ rfl]
  exact half_run _ (fun n h y => A (f0 n h y)) outs (fun n h e => iblk_of ⟨n, h⟩ _ (hf0 n h) A e) hA hB t.val t.isLt h390 hq r l

end Cert.KernelIdeal.Cnt

end
-- ==== Proof.CntArr0.lean ====
import proofs.«420317_j38706245272172_4_alg».proof.Proof.Cnt

noncomputable section

open Idealize.ShloMosaic Idealize.ShloMosaic.TcCoe Idealize.ShloMosaic.ValueIdx Idealize.ShloMosaic.Tactic
open Idealize.SL Idealize.SL.Sem

namespace Cert.KernelIdeal.CntArr0

open Cert.KernelIdeal Cert.KernelIdeal.Gen Cert.Spec

section Body

variable (c : Dev nD) (i : grid0.Coords) (arg2 : Memref sig .tc .vmem S2048 .i32) (harg2 : arg2.IsWhole)
  (arg3 : Memref sig .tc .vmem S1x50000x128 .f32) (harg3 : arg3.IsWhole) (x0 : Vec Ideal S2048 .i32)

theorem steps (G : BufTy.Contents (Elt Ideal) arg3.view.ty) :
    Cnt.Steps arg3 x0 G (pb_k0_t1 (F := Ideal) Variants.none c none i arg2 harg2 arg3 harg3 x0 G) :=
  ⟨rfl, fun k => by rw [pb_k0_t1_succ]; unfold tripL_k0_t1 trip_k0_t1; rfl⟩

theorem outB (hc0 : ¬cond0_0 i) (xo1 : Vec Ideal S1x50000x128 .f32) (r : Fin 50000) (l : Fin 128) :
    out0_B_1 (F := Ideal) c i arg2 harg2 arg3 harg3 hc0 x0 xo1 (ix3 0 r l)
      = xo1 (ix3 0 r l) + chunkCnt (fun e => x0 (ix1 e)) r :=
  Cnt.outB_of harg3 x0 _ (steps c i arg2 harg2 arg3 harg3 x0) VO0_1
    (cover0_B_1 c i arg2 harg2 arg3 harg3 hc0 x0 xo1) xo1 (by
      unfold kernelRun0_B
      dsimp only
      sl_unfold_words
      rw [Cnt.load_chunk]
      rfl) r l

theorem outA (hc0 : cond0_0 i) (r : Fin 50000) (l : Fin 128) :
    out0_A_1 (F := Ideal) c i arg2 harg2 arg3 harg3 hc0 x0 (ix3 0 r l) = 0 + chunkCnt (fun e => x0 (ix1 e)) r :=
  Cnt.outA_of x0 _ (steps c i arg2 harg2 arg3 harg3 x0) VO0_1 (cover0_A_1 c i arg2 harg2 arg3 harg3 hc0 x0) (by
    unfold kernelRun0_A
    dsimp only
    sl_unfold_words
    rw [Cnt.load_chunk]
    rfl) r l

end Body

variable (V : (c : Dev nD) → (b : Ref sig .tc) → Buf (Elt Ideal) ((c : Thread nD τ).loc b))

abbrev fd (c : Dev nD) (p : Fin 1601536) : BitVec 32 := (V c (Pipeline.arrRef spec0 0) : S1601536.Idx → BitVec 32) (ix1 p)

-- At a half's last point the block holds that half's counts.
theorem flushed_eq (c : Dev nD) (t : Fin cfg0.N) (hf : (cfg0.win 1).flush t = true) :
    (dat0 V c).flushed 1 t = ((cfg0.win 1).blk t).view.read (Elt Ideal) (Cnt.G (fd V c)) :=
  Cnt.flushed_of (V c (Pipeline.arrRef spec0 0)) (fun n h => ((cfg0.win 0).blk ⟨n, h⟩).view.emb) (fun _ _ _ _ => rfl)
    (outsAt0 V c)
    (fun n h h0 r l => (congrFun (outsAt0_A V c ⟨n, h⟩ h0) _).trans (outA c _ _ _ _ _ _ _ r l))
    (fun n h h0 r l => (congrFun (outsAt0_B V c ⟨n + 1, h⟩ h0) _).trans (outB c _ _ _ _ _ _ _ _ r l))
    t ((flush0_1 t).mp hf) ((cfg0.win 1).blk t).view.emb (fun _ _ => rfl) ((cfg0.win 1).xinj (grid0.coords t))
    fun r l => funext fun a => match a with | ⟨0, _⟩ => rfl | ⟨1, _⟩ => rfl | ⟨2, _⟩ => rfl

theorem arr (c : Dev nD) (h : Fin 2) (r : Fin 50000) (l : Fin 128) :
    (Gen.dat0 (F := Ideal) V c).arrAt 1 cfg0.N (ix3 h r l)
      = Cert.Spec.cntHalf (fun p => (V c (Pipeline.arrRef spec0 0) : S1601536.Idx → BitVec 32) (ix1 p)) h r := by
  have hh := h.isLt
  have hn : h.val * 391 + 390 < cfg0.N := lt_of_lt_of_eq (by omega) N_0.symm
  have he := Cnt.emb_of ⟨h.val * 391 + 390, hn⟩ ((cfg0.win 1).blk ⟨_, hn⟩).view.emb (fun _ _ => rfl) r l h (by dsimp only; omega)
  exact (dat0 V c).arrAt_apply_of_mem 1 (Cnt.G (fd V c)) (flushed_eq V c) cfg0.N ⟨h.val * 391 + 390, hn⟩ (ix3 h r l) hn
    ((flush0_1 _).mpr (by dsimp only; omega)) (by rw [← he]; exact View.emb_mem_set _ _)

end Cert.KernelIdeal.CntArr0

end
-- ==== Proof.CntArr1.lean ====
import proofs.«420317_j38706245272172_4_alg».proof.Proof.Cnt

noncomputable section

open Idealize.ShloMosaic Idealize.ShloMosaic.TcCoe Idealize.ShloMosaic.ValueIdx Idealize.ShloMosaic.Tactic
open Idealize.SL Idealize.SL.Sem

namespace Cert.KernelIdeal.CntArr1

open Cert.KernelIdeal Cert.KernelIdeal.Gen Cert.Spec

section Body

variable (c : Dev nD) (i : grid1.Coords) (arg2 : Memref sig .tc .vmem S2048 .i32) (harg2 : arg2.IsWhole)
  (arg3 : Memref sig .tc .vmem S1x50000x128 .f32) (harg3 : arg3.IsWhole) (x0 : Vec Ideal S2048 .i32)

theorem steps (G : BufTy.Contents (Elt Ideal) arg3.view.ty) :
    Cnt.Steps arg3 x0 G (pb_k1_t1 (F := Ideal) Variants.none c none i arg2 harg2 arg3 harg3 x0 G) :=
  ⟨rfl, fun k => by rw [pb_k1_t1_succ]; unfold tripL_k1_t1 trip_k1_t1; rfl⟩

theorem outB (hc0 : ¬cond1_0 i) (xo1 : Vec Ideal S1x50000x128 .f32) (r : Fin 50000) (l : Fin 128) :
    out1_B_1 (F := Ideal) c i arg2 harg2 arg3 harg3 hc0 x0 xo1 (ix3 0 r l)
      = xo1 (ix3 0 r l) + chunkCnt (fun e => x0 (ix1 e)) r :=
  Cnt.outB_of harg3 x0 _ (steps c i arg2 harg2 arg3 harg3 x0) VO1_1
    (cover1_B_1 c i arg2 harg2 arg3 harg3 hc0 x0 xo1) xo1 (by
      unfold kernelRun1_B
      dsimp only
      sl_unfold_words
      rw [Cnt.load_chunk]
      rfl) r l

theorem outA (hc0 : cond1_0 i) (r : Fin 50000) (l : Fin 128) :
    out1_A_1 (F := Ideal) c i arg2 harg2 arg3 harg3 hc0 x0 (ix3 0 r l) = 0 + chunkCnt (fun e => x0 (ix1 e)) r :=
  Cnt.outA_of x0 _ (steps c i arg2 harg2 arg3 harg3 x0) VO1_1 (cover1_A_1 c i arg2 harg2 arg3 harg3 hc0 x0) (by
    unfold kernelRun1_A
    dsimp only
    sl_unfold_words
    rw [Cnt.load_chunk]
    rfl) r l

end Body

variable (V : (c : Dev nD) → (b : Ref sig .tc) → Buf (Elt Ideal) ((c : Thread nD τ).loc b))

abbrev fd (c : Dev nD) (p : Fin 1601536) : BitVec 32 := (V c (Pipeline.arrRef spec1 0) : S1601536.Idx → BitVec 32) (ix1 p)

-- At a half's last point the block holds that half's counts.
theorem flushed_eq (c : Dev nD) (t : Fin cfg1.N) (hf : (cfg1.win 1).flush t = true) :
    (dat1 V c).flushed 1 t = ((cfg1.win 1).blk t).view.read (Elt Ideal) (Cnt.G (fd V c)) :=
  Cnt.flushed_of (V c (Pipeline.arrRef spec1 0)) (fun n h => ((cfg1.win 0).blk ⟨n, h⟩).view.emb) (fun _ _ _ _ => rfl)
    (outsAt1 V c)
    (fun n h h0 r l => (congrFun (outsAt1_A V c ⟨n, h⟩ h0) _).trans (outA c _ _ _ _ _ _ _ r l))
    (fun n h h0 r l => (congrFun (outsAt1_B V c ⟨n + 1, h⟩ h0) _).trans (outB c _ _ _ _ _ _ _ _ r l))
    t ((flush1_1 t).mp hf) ((cfg1.win 1).blk t).view.emb (fun _ _ => rfl) ((cfg1.win 1).xinj (grid1.coords t))
    fun r l => funext fun a => match a with | ⟨0, _⟩ => rfl | ⟨1, _⟩ => rfl | ⟨2, _⟩ => rfl

theorem arr (c : Dev nD) (h : Fin 2) (r : Fin 50000) (l : Fin 128) :
    (Gen.dat1 (F := Ideal) V c).arrAt 1 cfg1.N (ix3 h r l)
      = Cert.Spec.cntHalf (fun p => (V c (Pipeline.arrRef spec1 0) : S1601536.Idx → BitVec 32) (ix1 p)) h r := by
  have hh := h.isLt
  have hn : h.val * 391 + 390 < cfg1.N := lt_of_lt_of_eq (by omega) N_1.symm
  have he := Cnt.emb_of ⟨h.val * 391 + 390, hn⟩ ((cfg1.win 1).blk ⟨_, hn⟩).view.emb (fun _ _ => rfl) r l h (by dsimp only; omega)
  exact (dat1 V c).arrAt_apply_of_mem 1 (Cnt.G (fd V c)) (flushed_eq V c) cfg1.N ⟨h.val * 391 + 390, hn⟩ (ix3 h r l) hn
    ((flush1_1 _).mpr (by dsimp only; omega)) (by rw [← he]; exact View.emb_mem_set _ _)

end Cert.KernelIdeal.CntArr1

end
-- ==== Proof.SumBody.lean ====
import proofs.«420317_j38706245272172_4_alg».proof.Proof.Gen.KernelIdeal.Frame
import proofs.«420317_j38706245272172_4_alg».proof.Proof.Spec
import proofs.«420317_j38706245272172_4_alg».proof.Proof.LibOneHot
import Idealize.ShloMosaic.Lib.ValueLayout
import Idealize.ShloMosaic.Lib.WritesUnit
import Idealize.ShloMosaic.Lib.Pipeline.Value

noncomputable section

open scoped BigOperators

namespace Cert.KernelIdeal.SumBody

open Idealize.ShloMosaic Idealize.ShloMosaic.ValueIdx
open Cert.KernelIdeal Cert.KernelIdeal.Gen Cert.LibOneHot

theorem col_across {α : Type} (v : S1000x1.Idx → α) (h : S1000x1.Broadcasts S1000x2048) (p : Fin 1000) (e : Fin 2048) :
    broadcastTo S1000x2048 v h (ix2 p e) = v (ix2 p 0) :=
  broadcastTo_apply v h (ix2 p e) (ix2 p 0) fun a => match a with | ⟨0, _⟩ => rfl | ⟨1, _⟩ => rfl

theorem tile_start : ∀ k : Fin k2_t1_loop.trips,
    Scalar.muli (Scalar.addi 0#32 (Scalar.muli (Scf.iv 0#32 1#32 k) 1#32)) 1000#32 = BitVec.ofNat 32 (1000 * k.val) := by
  decide +kernel

/-- A product into a zero accumulator, at row p and column d, is the sum over the contracted axis. -/
theorem product_at (A : FVec Ideal S1000x2048 .bf16) (B : FVec Ideal S2048x128 .bf16) (p : Fin 1000) (d : Fin 128) :
    matmul dot_S1000x2048_S2048x128_S1000x128_1_0_0_1_n_n none A B (constant (F := Ideal) S1000x128 .f32 0x00000000#32) (ix2 p d)
      = ∑ e : Fin 2048, A (ix2 p e) * B (ix2 e d) := by
  simp only [matmul]
  rw [Ideal.matmul_constant_zero_apply, ← Equiv.sum_comp (contrEquiv1 _ 2048 rfl rfl).symm]
  refine Finset.sum_congr rfl fun e _ => ?_
  congr 2 <;> funext a <;> refine Fin.ext ?_
  · match a with
    | ⟨0, _⟩ => rfl
    | ⟨1, _⟩ => exact (DotDims.lhsIdx_val_of_single (d := _) (cl := 1) rfl _ _).trans (contrEquiv1_symm_val _ 2048 rfl rfl e)
  · match a with
    | ⟨0, _⟩ => exact (DotDims.rhsIdx_val_of_single (d := _) (cr := 0) rfl _ _).trans (contrEquiv1_symm_val _ 2048 rfl rfl e)
    | ⟨1, _⟩ => rfl

/-- The sum, over a chunk's 2048 edges, of the message entries in column d whose target word is the word of r. -/
def rowSum (v3 : Vec Ideal S2048x128 .bf16) (v5 : Vec Ideal S2048 .i32) (r : ℕ) (d : Fin 128) : EReal :=
  ∑ e : Fin 2048, (if v5 (ix1 e) = BitVec.ofNat 32 r then (1 : EReal) else 0) * v3 (ix2 e d)

/-- Row p of tile k gains the row sum of row 1000 k + p: the one-hot matrix times the messages. -/
theorem pay_at (v3 : Vec Ideal S2048x128 .bf16) (v5 : Vec Ideal S2048 .i32) (k : Fin k2_t1_loop.trips)
    (v24 : Vec Ideal S1x1000x128 .f32) (p : Fin 1000) (d : Fin 128) :
    k2_pay2 (F := Ideal) v3 v5 k v24 (ix3 0 p d) = v24 (ix3 0 p d) + rowSum v3 v5 (1000 * k.val + p.val) d := by
  unfold k2_pay2 rowSum
  dsimp only
  rw [shapeCast_ab_1ab_apply, addf_apply, shapeCast_1ab_ab_apply, product_at]
  refine congrArg (v24 (ix3 0 p d) + ·) (Finset.sum_congr rfl fun e _ => ?_)
  rw [truncf_apply, sitofp_apply, extui_apply, shapeCast_self, shapeCast_self, cmpi_at, broadcastTo_1b_ab_apply,
    shapeCast_a_1a_apply, col_across, addi_at, broadcast_apply, iota_single_apply, tile_start, onehot_word]
  show (if v5 (ix1 e) = IntOp.addi (BitVec.ofNat 32 (1000 * k.val)) (BitVec.ofNat 32 p.val) then (1 : EReal) else 0) * v3 (ix2 e d) = _
  rw [row_word]

theorem tile_off : ∀ k : Fin k2_t1_loop.trips, ∀ a, k2_off1 k a = ![0, 1000 * k.val, 0] a := by decide +kernel

theorem trips_eq : k2_t1_loop.trips = 50 := by decide +kernel

/-- Tile k: rows 1000 k … 1000 k + 999 of the table, all columns. -/
abbrev tile (k : Fin k2_t1_loop.trips) : Rect S1x50000x128 := Rect.unit (k2_off1 k) S1x1000x128.size (k2_off1_inb k)

theorem emb_tile (k : Fin k2_t1_loop.trips) (r : Fin 50000) (d : Fin 128) (h : r.val / 1000 = k.val) :
    (tile k).emb (ix3 0 ⟨r.val % 1000, Nat.mod_lt _ (by norm_num)⟩ d) = (ix3 0 r d : S1x50000x128.Idx) := by
  funext a
  refine Fin.ext ?_
  rw [Rect.emb_apply, Rect.off_unit, Rect.stride_unit, tile_off k a]
  match a with
  | ⟨0, _⟩ => rfl
  | ⟨1, _⟩ =>
    show 1000 * k.val + 1 * (r.val % 1000) = r.val
    omega
  | ⟨2, _⟩ =>
    show 0 + 1 * d.val = d.val
    omega

/-- All of `unread x`, read back through the zero-offset rectangle, is `x`. -/
theorem load_whole {s : Shape} {e : EltTy} (m : Memref sig .tc .vmem s e) (hm : m.IsWhole) {off : Fin s.rank → ℕ}
    (h : off = fun _ => 0) (inb : ∀ a, off a + s.size a ≤ s.size a) (x : Vec Ideal s e) :
    View.readAt (Elt Ideal) m.view (Rect.unit off s.size inb).toLoadRect (hm.unread x) = x := by
  subst h
  funext j
  rw [View.readAt_apply, hm.read_unread]
  exact congrArg x (Rect.emb_whole_apply s j)

/-- An entry times 1 or 0 is the entry or 0. -/
theorem rowSum_eq (x0 : Vec Ideal S2048x128 .bf16) (x1 : Vec Ideal S2048 .i32) (r : Fin 50000) (d : Fin 128) :
    rowSum x0 x1 r.val d = Cert.Spec.chunkSum (fun e => x1 (ix1 e)) (fun e d => x0 (ix2 e d)) r d := by
  unfold rowSum Cert.Spec.chunkSum
  refine Finset.sum_congr rfl fun e _ => ?_
  rw [ite_mul, one_mul, zero_mul]

/-- A loop of read-modify-write stores, one per tile in order: the piece lists it leaves through view v. -/
def TileLoop (v : View sig .tc .vmem S1x50000x128 .f32)
    (pb : Vec Ideal S2048x128 .bf16 → Vec Ideal S2048 .i32 → BufTy.Contents (Elt Ideal) v.ty → ℕ → List (View.Piece (Elt Ideal) S1x50000x128 .f32)) : Prop :=
  (∀ v3 v5 G, pb v3 v5 G 0 = []) ∧ ∀ v3 v5 G (k : Fin k2_t1_loop.trips), pb v3 v5 G (k.val + 1)
    = ⟨tile k, k2_pay2 v3 v5 k (View.readAt (Elt Ideal) v (tile k).toLoadRect (v.writes (Elt Ideal) G (pb v3 v5 G k.val)))⟩ :: pb v3 v5 G k.val

section Loop
variable {v : View sig .tc .vmem S1x50000x128 .f32}
  {pb : Vec Ideal S2048x128 .bf16 → Vec Ideal S2048 .i32 → BufTy.Contents (Elt Ideal) v.ty → ℕ → List (View.Piece (Elt Ideal) S1x50000x128 .f32)}
  (hpb : TileLoop v pb) (v3 : Vec Ideal S2048x128 .bf16) (v5 : Vec Ideal S2048 .i32) (G : BufTy.Contents (Elt Ideal) v.ty)
include hpb

/-- After the first n tiles each of their rows has gained its row sum; every row lies in exactly one tile. -/
theorem read_trips (r : Fin 50000) (d : Fin 128) : ∀ n : ℕ, n ≤ k2_t1_loop.trips →
    v.read (Elt Ideal) (v.writes (Elt Ideal) G (pb v3 v5 G n)) (ix3 0 r d)
      = if r.val / 1000 < n then v.read (Elt Ideal) G (ix3 0 r d) + rowSum v3 v5 r.val d else v.read (Elt Ideal) G (ix3 0 r d)
  | 0, _ => by
    rw [hpb.1, if_neg (Nat.not_lt_zero _)]
    rfl
  | n + 1, hn => by
    have ih := read_trips r d n (Nat.le_of_succ_le hn)
    rw [hpb.2 v3 v5 G ⟨n, hn⟩]
    by_cases h : r.val / 1000 = n
    · have he := emb_tile ⟨n, hn⟩ r d h
      rw [if_pos (by omega), ← he, View.read_writes_cons_emb, pay_at, View.readAt_apply]
      show v.read _ (v.writes _ G (pb v3 v5 G n)) ((tile ⟨n, hn⟩).emb _) + _ = _
      rw [he, ih, if_neg (by omega), show 1000 * n + r.val % 1000 = r.val by omega]
    · rw [View.read_writes_cons_unit_of_not_mem v G (k2_off1_inb ⟨n, hn⟩) _ _ _ (funext (tile_off ⟨n, hn⟩)) 1
        (by show r.val < 1000 * n ∨ 1000 * n + 1000 ≤ r.val; omega), ih]
      by_cases h' : r.val / 1000 < n
      · rw [if_pos h', if_pos (by omega)]
      · rw [if_neg h', if_neg (by omega)]

end Loop

/-- The block of zeros stored over the whole table reads 0 everywhere. -/
theorem zero_block (v : View sig .tc .vmem S1x50000x128 .f32) (f : BufTy.Contents (Elt Ideal) v.ty) (r : Fin 50000) (d : Fin 128) :
    v.read (Elt Ideal) (v.writes (Elt Ideal) f [⟨Rect.unit (s := S1x50000x128) ![0, 0, 0] S1x50000x128.size inb_S1x50000x128_S1x50000x128_0_0_0, k2_pay1 (F := Ideal)⟩]) (ix3 0 r d) = 0 := by
  rw [View.read_writes_cons_unit_of_mem v f inb_S1x50000x128_S1x50000x128_0_0_0 (k2_pay1 (F := Ideal)) [] (ix3 0 r d) (ix3 0 r d) rfl fun a => match a with
    | ⟨0, _⟩ => rfl | ⟨1, _⟩ => (Nat.zero_add _).symm | ⟨2, _⟩ => (Nat.zero_add _).symm]
  unfold k2_pay1
  exact (shapeCast_ab_1ab_apply _ _ 0 r d).trans Ideal.ofBits_zero_f32

section Point
variable {v : View sig .tc .vmem S1x50000x128 .f32}
  {pb : Vec Ideal S2048x128 .bf16 → Vec Ideal S2048 .i32 → BufTy.Contents (Elt Ideal) v.ty → ℕ → List (View.Piece (Elt Ideal) S1x50000x128 .f32)}
  (hpb : TileLoop v pb) (VO : View sig .tc .vmem S1x50000x128 .f32)
  (m2 : Memref sig .tc .vmem S2048x128 .bf16) (h2 : m2.IsWhole) (m3 : Memref sig .tc .vmem S2048 .i32) (h3 : m3.IsWhole)
  (x0 : Vec Ideal S2048x128 .bf16) (x1 : Vec Ideal S2048 .i32)
  (L : List (View.Piece (Elt Ideal) S1x50000x128 .f32)) (hcov : ∀ y, ∃ pc ∈ L, y ∈ pc.1.set) (r : Fin 50000) (d : Fin 128)
include hpb hcov

/-- What a grid point leaves at row r, column d, its stores L amounting to the whole loop, on the loaded blocks, over G. -/
theorem out_at (G0 G : BufTy.Contents (Elt Ideal) v.ty)
    (hL : v.writes (Elt Ideal) G0 L = v.writes (Elt Ideal) G (pb (View.readAt (Elt Ideal) m2.view (Rect.unit (s := S2048x128) ![0, 0] S2048x128.size inb_S2048x128_S2048x128_0_0).toLoadRect (h2.unread x0))
      (View.readAt (Elt Ideal) m3.view (Rect.unit (s := S2048) ![0] S2048.size inb_S2048_S2048_0).toLoadRect (h3.unread x1)) G k2_t1_loop.trips)) :
    VO.read (Elt Ideal) (VO.writes (Elt Ideal) VO.junk L) (ix3 0 r d)
      = v.read (Elt Ideal) G (ix3 0 r d) + Cert.Spec.chunkSum (fun e => x1 (ix1 e)) (fun e d => x0 (ix2 e d)) r d := by
  rw [View.read_writes_of_cover VO VO.junk v G0 L hcov, hL, read_trips hpb _ _ G r d _ (le_refl _),
    if_pos (by rw [trips_eq]; have := r.isLt; omega), load_whole m2 h2 (off := ![0, 0]) (by decide),
    load_whole m3 h3 (off := ![0]) (by decide), rowSum_eq]

/-- A half's first point: the table is zeroed, then the loop runs over the zeros. -/
theorem out_first (hL : L = pb (View.readAt (Elt Ideal) m2.view (Rect.unit (s := S2048x128) ![0, 0] S2048x128.size inb_S2048x128_S2048x128_0_0).toLoadRect (h2.unread x0))
      (View.readAt (Elt Ideal) m3.view (Rect.unit (s := S2048) ![0] S2048.size inb_S2048_S2048_0).toLoadRect (h3.unread x1))
      (v.writes (Elt Ideal) v.junk [⟨Rect.unit (s := S1x50000x128) ![0, 0, 0] S1x50000x128.size inb_S1x50000x128_S1x50000x128_0_0_0, k2_pay1 (F := Ideal)⟩]) k2_t1_loop.trips
        ++ [⟨Rect.unit (s := S1x50000x128) ![0, 0, 0] S1x50000x128.size inb_S1x50000x128_S1x50000x128_0_0_0, k2_pay1 (F := Ideal)⟩]) :
    VO.read (Elt Ideal) (VO.writes (Elt Ideal) VO.junk L) (ix3 0 r d)
      = Cert.Spec.chunkSum (fun e => x1 (ix1 e)) (fun e d => x0 (ix2 e d)) r d := by
  subst hL
  rw [out_at hpb VO m2 h2 m3 h3 x0 x1 _ hcov r d v.junk _ (View.writes_append _ _ _ _), zero_block, zero_add]

end Point

section Run
variable (fd : Fin 1601536 → BitVec 32) (msg : Fin 1601536 → Fin 128 → EReal)

/-- The padded arrays by a natural position (zero past the end, where they are never read). -/
def fdN (p : ℕ) : BitVec 32 := if hp : p < 1601536 then fd ⟨p, hp⟩ else 0#32
def msgN (p : ℕ) (d : Fin 128) : EReal := if hp : p < 1601536 then msg ⟨p, hp⟩ d else 0

/-- Chunk n's sum for row r and column d. -/
def M (r : Fin 50000) (d : Fin 128) (n : ℕ) : EReal :=
  Cert.Spec.chunkSum (fun e => fdN fd (n * 2048 + e.val)) (fun e d => msgN msg (n * 2048 + e.val) d) r d

/-- The blocks placed at block index t of the padded arrays are chunk t of the arrays. -/
theorem chunk_eq {t : ℕ} (ht : t < 782) {f1 : S2048.Idx → S1601536.Idx} {f0 : S2048x128.Idx → S1601536x128.Idx}
    (h1 : ∀ y a, (f1 y a).val = ![t] a * S2048.size a + 1 * (y a).val)
    (h0 : ∀ y a, (f0 y a).val = ![t, 0] a * S2048x128.size a + 1 * (y a).val)
    (A1 : S1601536.Idx → BitVec 32) (A0 : S1601536x128.Idx → EReal) (r : Fin 50000) (d : Fin 128) :
    Cert.Spec.chunkSum (fun e => A1 (f1 (ix1 e))) (fun e d => A0 (f0 (ix2 e d))) r d
      = M (fun p => A1 (ix1 p)) (fun p d => A0 (ix2 p d)) r d t := by
  have hp : ∀ e : Fin 2048, t * 2048 + e.val < 1601536 := fun e => by have := e.isLt; omega
  unfold M fdN msgN
  congr 1
  · funext e
    rw [dif_pos (hp e)]
    exact congrArg A1 (funext fun a => Fin.ext (match a with
      | ⟨0, _⟩ => (h1 _ 0).trans (by show t * 2048 + 1 * e.val = t * 2048 + e.val; omega)))
  · funext e d'
    rw [dif_pos (hp e)]
    exact congrArg A0 (funext fun a => Fin.ext (match a with
      | ⟨0, _⟩ => (h0 _ 0).trans (by show t * 2048 + 1 * e.val = t * 2048 + e.val; omega)
      | ⟨1, _⟩ => (h0 _ 1).trans (by show 0 * 128 + 1 * d'.val = d'.val; omega)))

/-- Entry (0, r, d) of the block placed at block index (n, 0, 0) is entry (n, r, d) of the array. -/
theorem blk_out {n : ℕ} {f : S1x50000x128.Idx → S2x50000x128.Idx}
    (hf : ∀ y a, (f y a).val = ![n, 0, 0] a * S1x50000x128.size a + 1 * (y a).val) (q : Fin 2) (hq : n = q.val)
    (r : Fin 50000) (d : Fin 128) : f (ix3 0 r d) = ix3 q r d :=
  funext fun a => Fin.ext (match a with
    | ⟨0, _⟩ => (hf _ 0).trans (by show n * 1 + 1 * 0 = q.val; omega)
    | ⟨1, _⟩ => (hf _ 1).trans (by show 0 * 50000 + 1 * r.val = r.val; omega)
    | ⟨2, _⟩ => (hf _ 2).trans (by show 0 * 128 + 1 * d.val = d.val; omega))

variable {N : ℕ} (r : Fin 50000) (d : Fin 128) (o : (n : ℕ) → n < N → EReal)
  (hA : ∀ t : Fin N, t.val % 391 = 0 → o t.val t.isLt = M fd msg r d t.val)
  (hB : ∀ t : Fin N, ¬t.val % 391 = 0 →
    o t.val t.isLt = o (t.val - 1) (Nat.lt_of_le_of_lt (Nat.sub_le _ _) t.isLt) + M fd msg r d t.val)
include hA hB

/-- Reset to its chunk's sum where a half starts and increased by it elsewhere: the sum of the half's chunk sums so far. -/
theorem run_sum (h : ℕ) : ∀ (j : ℕ) (_ : j < 391) (hn : h * 391 + j < N),
    o (h * 391 + j) hn = ∑ s ∈ Finset.range (j + 1), M fd msg r d (h * 391 + s)
  | 0, _, hn => by
    rw [hA ⟨_, hn⟩ (by dsimp only; omega), Finset.sum_range_one]
  | j + 1, hj, hn => by
    rw [hB ⟨_, hn⟩ (by dsimp only; omega), Finset.sum_range_succ _ (j + 1)]
    show o (h * 391 + j) _ + _ = _
    rw [run_sum h j (by omega) (Nat.lt_of_succ_lt hn)]

/-- At the last point of a half it is the half's sum. -/
theorem half_sum (hN : N = 782) (t : Fin N) (ht : t.val % 391 = 390) (hq : t.val / 391 < 2) :
    o t.val t.isLt = Cert.Spec.sumHalf fd msg ⟨t.val / 391, hq⟩ r d := by
  subst hN
  have key : ∀ (n : ℕ) (hn : n < 782), n = t.val → o t.val t.isLt = o n hn := by
    intro n hn e; subst e; rfl
  have hn : t.val / 391 * 391 + 390 < 782 := by omega
  rw [key _ hn (by omega), run_sum fd msg r d o hA hB (t.val / 391) 390 (by omega) hn, show (390 + 1 : ℕ) = 391 from rfl,
    Finset.sum_range]
  unfold Cert.Spec.sumHalf
  refine Finset.sum_congr rfl fun k _ => ?_
  unfold M
  have hp : ∀ e : Fin 2048, (t.val / 391 * 391 + k.val) * 2048 + e.val < 1601536 := fun e => by
    have := k.isLt; have := e.isLt; omega
  congr 1
  · funext e
    unfold fdN
    rw [dif_pos (hp e)]
    rfl
  · funext e d'
    unfold msgN
    rw [dif_pos (hp e)]
    rfl

end Run

end Cert.KernelIdeal.SumBody
end
-- ==== Proof.SumArr2.lean ====
import proofs.«420317_j38706245272172_4_alg».proof.Proof.SumBody

noncomputable section

open Idealize.ShloMosaic Idealize.ShloMosaic.TcCoe Idealize.SL.Sem
open Idealize.ShloMosaic.Pipeline (Dat)
open Idealize.ShloMosaic.ValueIdx
open scoped BigOperators

namespace Cert.KernelIdeal.SumArr2

open Cert.KernelIdeal Cert.KernelIdeal.Gen Cert.KernelIdeal.SumBody

variable (V : (c : Dev nD) → (b : Ref sig .tc) → Buf (Elt Ideal) ((c : Thread nD τ).loc b))

theorem idx : ∀ t : Fin cfg2.N, win2_0.index t = ![t.val, 0] ∧ win2_1.index t = ![t.val] ∧ win2_2.index t = ![t.val / 391, 0, 0] :=
  (by decide +kernel : ∀ t : Fin grid2.N, _)

/-- The padded target and message arrays, by position. -/
abbrev fd (c : Dev nD) (p : Fin 1601536) : BitVec 32 := (V c (Pipeline.arrRef spec2 1) : S1601536.Idx → BitVec 32) (ix1 p)
abbrev msg (c : Dev nD) (p : Fin 1601536) (d : Fin 128) : EReal :=
  (V c (Pipeline.arrRef spec2 0) : S1601536x128.Idx → EReal) (ix2 p d)

/-- Point t's blocks are chunk t of the two arrays. -/
theorem blocks (c : Dev nD) (t : Fin cfg2.N) (r : Fin 50000) (d : Fin 128) :
    Cert.Spec.chunkSum (fun e => (iblk2 V c 1 t : Vec Ideal S2048 .i32) (ix1 e))
        (fun e d => (iblk2 V c 0 t : Vec Ideal S2048x128 .bf16) (ix2 e d)) r d = M (fd V c) (msg V c) r d t.val :=
  chunk_eq (lt_of_lt_of_eq t.isLt N_2) (f1 := ((cfg2.win 1).blk t).view.emb) (f0 := ((cfg2.win 0).blk t).view.emb)
    ((idx t).2.1 ▸ fun _ _ => rfl) ((idx t).1 ▸ fun _ _ => rfl) (V c (Pipeline.arrRef spec2 1)) (V c (Pipeline.arrRef spec2 0)) r d

/-- The output block at point t is block t / 391 of the array. -/
theorem emb_out (t : Fin cfg2.N) (q : Fin 2) (hq : t.val / 391 = q.val) (r : Fin 50000) (d : Fin 128) :
    ((cfg2.win 2).blk t).view.emb (ix3 (0 : Fin 1) r d) = ix3 q r d :=
  blk_out ((idx t).2.2 ▸ fun _ _ => rfl) q hq r d

theorem loop (c : Dev nD) (t : Fin cfg2.N) : TileLoop (ms2_2 t).view
    (pb_k2_t1 Variants.none c none (grid2.coords t) (ms2_0 t) (hs2_0 t) (ms2_1 t) (hs2_1 t) (ms2_2 t) (hs2_2 t)) :=
  And.intro (fun _ _ _ => rfl) fun _ _ _ k => by rw [pb_k2_t1_succ]; unfold tripL_k2_t1 trip_k2_t1; rfl

/-- The first point of a half leaves its chunk's sums over zero. -/
theorem ptA (c : Dev nD) (t : Fin cfg2.N) (h0 : t.val % 391 = 0) (r : Fin 50000) (d : Fin 128) :
    (outsAt2 V c t.val t.isLt : Vec Ideal S1x50000x128 .f32) (ix3 0 r d) = M (fd V c) (msg V c) r d t.val := by
  rw [outsAt2_A V c t h0]
  unfold out2_A_2
  refine (out_first (loop c t) VO2_2 _ _ _ _ _ _ _ (cover2_A_2 _ _ _ _ _ _ _ _ _ _ _) r d (by unfold kernelRun2_A; rfl)).trans ?_
  exact blocks V c t r d

/-- Every other point adds its chunk's sums to what the point before left. -/
theorem ptB (c : Dev nD) (t : Fin cfg2.N) (h0 : ¬t.val % 391 = 0) (r : Fin 50000) (d : Fin 128) :
    (outsAt2 V c t.val t.isLt : Vec Ideal S1x50000x128 .f32) (ix3 0 r d)
      = (outsAt2 V c (t.val - 1) (Nat.lt_of_le_of_lt (Nat.sub_le _ _) t.isLt) : Vec Ideal S1x50000x128 .f32) (ix3 0 r d)
        + M (fd V c) (msg V c) r d t.val := by
  rw [outsAt2_B V c t h0]
  unfold out2_B_2
  refine (out_at (loop c t) VO2_2 _ _ _ _ _ _ _ (cover2_B_2 _ _ _ _ _ _ _ _ _ _ _ _) r d _ _ (by unfold kernelRun2_B; rfl)).trans ?_
  rw [(hs2_2 t).read_unread, blocks]

/-- At a half's last point the block is that half's block of sums. -/
theorem flushed_eq (c : Dev nD) (t : Fin cfg2.N) (hf : (cfg2.win 2).flush t = true) :
    (dat2 V c).flushed 2 t = ((cfg2.win 2).blk t).view.read (Elt Ideal)
      (fun i : S2x50000x128.Idx => Cert.Spec.sumHalf (fd V c) (msg V c) (i 0) (i 1) (i 2)) := by
  have hq : t.val / 391 < 2 := by have := lt_of_lt_of_eq t.isLt N_2; omega
  funext (y : S1x50000x128.Idx)
  obtain ⟨a, r, d, rfl⟩ : ∃ a r d, y = ix3 a r d := ⟨y 0, y 1, y 2, eq_ix3 y⟩
  obtain rfl : a = 0 := Subsingleton.elim _ _
  show (dat2 V c).after 2 t (ix3 0 r d) = _
  rw [after2_2, View.read_apply, emb_out t ⟨_, hq⟩ rfl r d]
  exact half_sum (fd V c) (msg V c) r d (fun n hn => outsAt2 V c n hn (ix3 0 r d)) (ptA V c · · r d) (ptB V c · · r d) N_2 t
    ((flush2_2 t).mp hf) hq

theorem arr (c : Dev nD) (h : Fin 2) (r : Fin 50000) (d : Fin 128) :
    (Gen.dat2 (F := Ideal) V c).arrAt 2 cfg2.N (ix3 h r d)
      = Cert.Spec.sumHalf (fun p => (V c (Pipeline.arrRef spec2 1) : S1601536.Idx → BitVec 32) (ix1 p))
          (fun p d => (V c (Pipeline.arrRef spec2 0) : S1601536x128.Idx → EReal) (ix2 p d)) h r d :=
  congrFun ((dat2 V c).arrAt_eq_of_cover 2 _ (flushed_eq V c) fun (i : S2x50000x128.Idx) => by
    obtain ⟨h, r, d, rfl⟩ : ∃ h r d, i = ix3 h r d := ⟨i 0, i 1, i 2, eq_ix3 i⟩
    have hh := h.isLt
    have hn : h.val * 391 + 390 < cfg2.N := lt_of_lt_of_eq (by omega) N_2.symm
    refine ⟨⟨_, hn⟩, (flush2_2 _).mpr (by dsimp only; omega), ?_⟩
    rw [← emb_out ⟨_, hn⟩ h (by dsimp only; omega) r d]
    exact View.emb_mem_set _ _) (ix3 h r d)

end Cert.KernelIdeal.SumArr2

end
-- ==== Proof.SumArr4.lean ====
import proofs.«420317_j38706245272172_4_alg».proof.Proof.SumBody

noncomputable section

open Idealize.ShloMosaic Idealize.ShloMosaic.TcCoe Idealize.SL.Sem
open Idealize.ShloMosaic.Pipeline (Dat)
open Idealize.ShloMosaic.ValueIdx
open scoped BigOperators

namespace Cert.KernelIdeal.SumArr4

open Cert.KernelIdeal Cert.KernelIdeal.Gen Cert.KernelIdeal.SumBody

variable (V : (c : Dev nD) → (b : Ref sig .tc) → Buf (Elt Ideal) ((c : Thread nD τ).loc b))

theorem idx : ∀ t : Fin cfg4.N, win4_0.index t = ![t.val, 0] ∧ win4_1.index t = ![t.val] ∧ win4_2.index t = ![t.val / 391, 0, 0] :=
  (by decide +kernel : ∀ t : Fin grid4.N, _)

/-- The padded target and message arrays, by position. -/
abbrev fd (c : Dev nD) (p : Fin 1601536) : BitVec 32 := (V c (Pipeline.arrRef spec4 1) : S1601536.Idx → BitVec 32) (ix1 p)
abbrev msg (c : Dev nD) (p : Fin 1601536) (d : Fin 128) : EReal :=
  (V c (Pipeline.arrRef spec4 0) : S1601536x128.Idx → EReal) (ix2 p d)

/-- Point t's blocks are chunk t of the two arrays. -/
theorem blocks (c : Dev nD) (t : Fin cfg4.N) (r : Fin 50000) (d : Fin 128) :
    Cert.Spec.chunkSum (fun e => (iblk4 V c 1 t : Vec Ideal S2048 .i32) (ix1 e))
        (fun e d => (iblk4 V c 0 t : Vec Ideal S2048x128 .bf16) (ix2 e d)) r d = M (fd V c) (msg V c) r d t.val :=
  chunk_eq (lt_of_lt_of_eq t.isLt N_4) (f1 := ((cfg4.win 1).blk t).view.emb) (f0 := ((cfg4.win 0).blk t).view.emb)
    ((idx t).2.1 ▸ fun _ _ => rfl) ((idx t).1 ▸ fun _ _ => rfl) (V c (Pipeline.arrRef spec4 1)) (V c (Pipeline.arrRef spec4 0)) r d

/-- The output block at point t is block t / 391 of the array. -/
theorem emb_out (t : Fin cfg4.N) (q : Fin 2) (hq : t.val / 391 = q.val) (r : Fin 50000) (d : Fin 128) :
    ((cfg4.win 2).blk t).view.emb (ix3 (0 : Fin 1) r d) = ix3 q r d :=
  blk_out ((idx t).2.2 ▸ fun _ _ => rfl) q hq r d

theorem loop (c : Dev nD) (t : Fin cfg4.N) : TileLoop (ms4_2 t).view
    (pb_k4_t1 Variants.none c none (grid4.coords t) (ms4_0 t) (hs4_0 t) (ms4_1 t) (hs4_1 t) (ms4_2 t) (hs4_2 t)) :=
  And.intro (fun _ _ _ => rfl) fun _ _ _ k => by rw [pb_k4_t1_succ]; unfold tripL_k4_t1 trip_k4_t1; rfl

/-- The first point of a half leaves its chunk's sums over zero. -/
theorem ptA (c : Dev nD) (t : Fin cfg4.N) (h0 : t.val % 391 = 0) (r : Fin 50000) (d : Fin 128) :
    (outsAt4 V c t.val t.isLt : Vec Ideal S1x50000x128 .f32) (ix3 0 r d) = M (fd V c) (msg V c) r d t.val := by
  rw [outsAt4_A V c t h0]
  unfold out4_A_2
  refine (out_first (loop c t) VO4_2 _ _ _ _ _ _ _ (cover4_A_2 _ _ _ _ _ _ _ _ _ _ _) r d (by unfold kernelRun4_A; rfl)).trans ?_
  exact blocks V c t r d

/-- Every other point adds its chunk's sums to what the point before left. -/
theorem ptB (c : Dev nD) (t : Fin cfg4.N) (h0 : ¬t.val % 391 = 0) (r : Fin 50000) (d : Fin 128) :
    (outsAt4 V c t.val t.isLt : Vec Ideal S1x50000x128 .f32) (ix3 0 r d)
      = (outsAt4 V c (t.val - 1) (Nat.lt_of_le_of_lt (Nat.sub_le _ _) t.isLt) : Vec Ideal S1x50000x128 .f32) (ix3 0 r d)
        + M (fd V c) (msg V c) r d t.val := by
  rw [outsAt4_B V c t h0]
  unfold out4_B_2
  refine (out_at (loop c t) VO4_2 _ _ _ _ _ _ _ (cover4_B_2 _ _ _ _ _ _ _ _ _ _ _ _) r d _ _ (by unfold kernelRun4_B; rfl)).trans ?_
  rw [(hs4_2 t).read_unread, blocks]

/-- At a half's last point the block is that half's block of sums. -/
theorem flushed_eq (c : Dev nD) (t : Fin cfg4.N) (hf : (cfg4.win 2).flush t = true) :
    (dat4 V c).flushed 2 t = ((cfg4.win 2).blk t).view.read (Elt Ideal)
      (fun i : S2x50000x128.Idx => Cert.Spec.sumHalf (fd V c) (msg V c) (i 0) (i 1) (i 2)) := by
  have hq : t.val / 391 < 2 := by have := lt_of_lt_of_eq t.isLt N_4; omega
  funext (y : S1x50000x128.Idx)
  obtain ⟨a, r, d, rfl⟩ : ∃ a r d, y = ix3 a r d := ⟨y 0, y 1, y 2, eq_ix3 y⟩
  obtain rfl : a = 0 := Subsingleton.elim _ _
  show (dat4 V c).after 2 t (ix3 0 r d) = _
  rw [after4_2, View.read_apply, emb_out t ⟨_, hq⟩ rfl r d]
  exact half_sum (fd V c) (msg V c) r d (fun n hn => outsAt4 V c n hn (ix3 0 r d)) (ptA V c · · r d) (ptB V c · · r d) N_4 t
    ((flush4_2 t).mp hf) hq

theorem arr (c : Dev nD) (h : Fin 2) (r : Fin 50000) (d : Fin 128) :
    (Gen.dat4 (F := Ideal) V c).arrAt 2 cfg4.N (ix3 h r d)
      = Cert.Spec.sumHalf (fun p => (V c (Pipeline.arrRef spec4 1) : S1601536.Idx → BitVec 32) (ix1 p))
          (fun p d => (V c (Pipeline.arrRef spec4 0) : S1601536x128.Idx → EReal) (ix2 p d)) h r d :=
  congrFun ((dat4 V c).arrAt_eq_of_cover 2 _ (flushed_eq V c) fun (i : S2x50000x128.Idx) => by
    obtain ⟨h, r, d, rfl⟩ : ∃ h r d, i = ix3 h r d := ⟨i 0, i 1, i 2, eq_ix3 i⟩
    have hh := h.isLt
    have hn : h.val * 391 + 390 < cfg4.N := lt_of_lt_of_eq (by omega) N_4.symm
    refine ⟨⟨_, hn⟩, (flush4_2 _).mpr (by dsimp only; omega), ?_⟩
    rw [← emb_out ⟨_, hn⟩ h (by dsimp only; omega) r d]
    exact View.emb_mem_set _ _) (ix3 h r d)

end Cert.KernelIdeal.SumArr4

end
-- ==== Proof.SumArr6.lean ====
import proofs.«420317_j38706245272172_4_alg».proof.Proof.SumBody

noncomputable section

open Idealize.ShloMosaic Idealize.ShloMosaic.TcCoe Idealize.SL.Sem
open Idealize.ShloMosaic.Pipeline (Dat)
open Idealize.ShloMosaic.ValueIdx
open scoped BigOperators

namespace Cert.KernelIdeal.SumArr6

open Cert.KernelIdeal Cert.KernelIdeal.Gen Cert.KernelIdeal.SumBody

variable (V : (c : Dev nD) → (b : Ref sig .tc) → Buf (Elt Ideal) ((c : Thread nD τ).loc b))

theorem idx : ∀ t : Fin cfg6.N, win6_0.index t = ![t.val, 0] ∧ win6_1.index t = ![t.val] ∧ win6_2.index t = ![t.val / 391, 0, 0] :=
  (by decide +kernel : ∀ t : Fin grid6.N, _)

/-- The padded target and message arrays, by position. -/
abbrev fd (c : Dev nD) (p : Fin 1601536) : BitVec 32 := (V c (Pipeline.arrRef spec6 1) : S1601536.Idx → BitVec 32) (ix1 p)
abbrev msg (c : Dev nD) (p : Fin 1601536) (d : Fin 128) : EReal :=
  (V c (Pipeline.arrRef spec6 0) : S1601536x128.Idx → EReal) (ix2 p d)

/-- Point t's blocks are chunk t of the two arrays. -/
theorem blocks (c : Dev nD) (t : Fin cfg6.N) (r : Fin 50000) (d : Fin 128) :
    Cert.Spec.chunkSum (fun e => (iblk6 V c 1 t : Vec Ideal S2048 .i32) (ix1 e))
        (fun e d => (iblk6 V c 0 t : Vec Ideal S2048x128 .bf16) (ix2 e d)) r d = M (fd V c) (msg V c) r d t.val :=
  chunk_eq (lt_of_lt_of_eq t.isLt N_6) (f1 := ((cfg6.win 1).blk t).view.emb) (f0 := ((cfg6.win 0).blk t).view.emb)
    ((idx t).2.1 ▸ fun _ _ => rfl) ((idx t).1 ▸ fun _ _ => rfl) (V c (Pipeline.arrRef spec6 1)) (V c (Pipeline.arrRef spec6 0)) r d

/-- The output block at point t is block t / 391 of the array. -/
theorem emb_out (t : Fin cfg6.N) (q : Fin 2) (hq : t.val / 391 = q.val) (r : Fin 50000) (d : Fin 128) :
    ((cfg6.win 2).blk t).view.emb (ix3 (0 : Fin 1) r d) = ix3 q r d :=
  blk_out ((idx t).2.2 ▸ fun _ _ => rfl) q hq r d

theorem loop (c : Dev nD) (t : Fin cfg6.N) : TileLoop (ms6_2 t).view
    (pb_k6_t1 Variants.none c none (grid6.coords t) (ms6_0 t) (hs6_0 t) (ms6_1 t) (hs6_1 t) (ms6_2 t) (hs6_2 t)) :=
  And.intro (fun _ _ _ => rfl) fun _ _ _ k => by rw [pb_k6_t1_succ]; unfold tripL_k6_t1 trip_k6_t1; rfl

/-- The first point of a half leaves its chunk's sums over zero. -/
theorem ptA (c : Dev nD) (t : Fin cfg6.N) (h0 : t.val % 391 = 0) (r : Fin 50000) (d : Fin 128) :
    (outsAt6 V c t.val t.isLt : Vec Ideal S1x50000x128 .f32) (ix3 0 r d) = M (fd V c) (msg V c) r d t.val := by
  rw [outsAt6_A V c t h0]
  unfold out6_A_2
  refine (out_first (loop c t) VO6_2 _ _ _ _ _ _ _ (cover6_A_2 _ _ _ _ _ _ _ _ _ _ _) r d (by unfold kernelRun6_A; rfl)).trans ?_
  exact blocks V c t r d

/-- Every other point adds its chunk's sums to what the point before left. -/
theorem ptB (c : Dev nD) (t : Fin cfg6.N) (h0 : ¬t.val % 391 = 0) (r : Fin 50000) (d : Fin 128) :
    (outsAt6 V c t.val t.isLt : Vec Ideal S1x50000x128 .f32) (ix3 0 r d)
      = (outsAt6 V c (t.val - 1) (Nat.lt_of_le_of_lt (Nat.sub_le _ _) t.isLt) : Vec Ideal S1x50000x128 .f32) (ix3 0 r d)
        + M (fd V c) (msg V c) r d t.val := by
  rw [outsAt6_B V c t h0]
  unfold out6_B_2
  refine (out_at (loop c t) VO6_2 _ _ _ _ _ _ _ (cover6_B_2 _ _ _ _ _ _ _ _ _ _ _ _) r d _ _ (by unfold kernelRun6_B; rfl)).trans ?_
  rw [(hs6_2 t).read_unread, blocks]

/-- At a half's last point the block is that half's block of sums. -/
theorem flushed_eq (c : Dev nD) (t : Fin cfg6.N) (hf : (cfg6.win 2).flush t = true) :
    (dat6 V c).flushed 2 t = ((cfg6.win 2).blk t).view.read (Elt Ideal)
      (fun i : S2x50000x128.Idx => Cert.Spec.sumHalf (fd V c) (msg V c) (i 0) (i 1) (i 2)) := by
  have hq : t.val / 391 < 2 := by have := lt_of_lt_of_eq t.isLt N_6; omega
  funext (y : S1x50000x128.Idx)
  obtain ⟨a, r, d, rfl⟩ : ∃ a r d, y = ix3 a r d := ⟨y 0, y 1, y 2, eq_ix3 y⟩
  obtain rfl : a = 0 := Subsingleton.elim _ _
  show (dat6 V c).after 2 t (ix3 0 r d) = _
  rw [after6_2, View.read_apply, emb_out t ⟨_, hq⟩ rfl r d]
  exact half_sum (fd V c) (msg V c) r d (fun n hn => outsAt6 V c n hn (ix3 0 r d)) (ptA V c · · r d) (ptB V c · · r d) N_6 t
    ((flush6_2 t).mp hf) hq

theorem arr (c : Dev nD) (h : Fin 2) (r : Fin 50000) (d : Fin 128) :
    (Gen.dat6 (F := Ideal) V c).arrAt 2 cfg6.N (ix3 h r d)
      = Cert.Spec.sumHalf (fun p => (V c (Pipeline.arrRef spec6 1) : S1601536.Idx → BitVec 32) (ix1 p))
          (fun p d => (V c (Pipeline.arrRef spec6 0) : S1601536x128.Idx → EReal) (ix2 p d)) h r d :=
  congrFun ((dat6 V c).arrAt_eq_of_cover 2 _ (flushed_eq V c) fun (i : S2x50000x128.Idx) => by
    obtain ⟨h, r, d, rfl⟩ : ∃ h r d, i = ix3 h r d := ⟨i 0, i 1, i 2, eq_ix3 i⟩
    have hh := h.isLt
    have hn : h.val * 391 + 390 < cfg6.N := lt_of_lt_of_eq (by omega) N_6.symm
    refine ⟨⟨_, hn⟩, (flush6_2 _).mpr (by dsimp only; omega), ?_⟩
    rw [← emb_out ⟨_, hn⟩ h (by dsimp only; omega) r d]
    exact View.emb_mem_set _ _) (ix3 h r d)

end Cert.KernelIdeal.SumArr6

end
-- ==== Proof.Dense.lean ====
import proofs.«420317_j38706245272172_4_alg».proof.Proof.Gen.KernelIdeal.Frame
import proofs.«420317_j38706245272172_4_alg».proof.Proof.Spec
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.KernelIdeal.Dense

open Cert.KernelIdeal Cert.KernelIdeal.Gen Idealize.ShloMosaic Idealize.ShloMosaic.TcCoe Idealize.ShloMosaic.ValueIdx Idealize.SL.Sem

abbrev D : DotDims S5000x128 S128x128 S5000x128 := dot_S5000x128_S128x128_S5000x128_1_0_0_1_n_n

theorem lhs_0 (i : S5000x128.Idx) (q : D.contr.Idx) : (D.lhsIdx i q 0).val = (i 0).val := by
  unfold DotDims.lhsIdx
  rw [dif_neg (show ¬(0 : Fin S5000x128.rank) ∈ D.lhsBatch by decide),
    dif_pos (show (0 : Fin S5000x128.rank) ∈ D.lhsNonContracting by decide)]
  rfl

theorem rhs_1 (i : S5000x128.Idx) (q : D.contr.Idx) : (D.rhsIdx i q 1).val = (i 1).val := by
  unfold DotDims.rhsIdx
  rw [dif_neg (show ¬(1 : Fin S128x128.rank) ∈ D.rhsBatch by decide),
    dif_pos (show (1 : Fin S128x128.rank) ∈ D.rhsNonContracting by decide)]
  rfl

/-- Into a zero accumulator the product's entry (p, j) is 0 + Σ_k A(p, k) · B(k, j), the zero dropped. -/
theorem mm_apply (A : FVec Ideal S5000x128 .f32) (B : FVec Ideal S128x128 .f32) (p : Fin 5000) (j : Fin 128) :
    matmul D (some .fp32) A B (constant (F := Ideal) S5000x128 .f32 0x00000000#32) (ix2 p j)
      = ∑ k : Fin 128, A (ix2 p k) * B (ix2 k j) := by
  simp only [matmul]
  rw [Ideal.matmul_constant_zero_apply, ← Equiv.sum_comp (contrEquiv1 D 128 rfl rfl).symm]
  refine Finset.sum_congr rfl fun k _ => ?_
  have hk := contrEquiv1_symm_val D 128 rfl rfl k
  have el : D.lhsIdx (ix2 p j) ((contrEquiv1 D 128 rfl rfl).symm k) = ix2 p k := funext fun a => Fin.ext (by
    match a with
    | ⟨0, _⟩ => exact lhs_0 _ _
    | ⟨1, _⟩ => exact (D.lhsIdx_val_of_single rfl _ _).trans hk)
  have er : D.rhsIdx (ix2 p j) ((contrEquiv1 D 128 rfl rfl).symm k) = ix2 k j := funext fun a => Fin.ext (by
    match a with
    | ⟨0, _⟩ => exact (D.rhsIdx_val_of_single rfl _ _).trans hk
    | ⟨1, _⟩ => exact rhs_1 _ _)
  rw [el, er]

/-- Keeping y where 0 ≤ y and slope · y elsewhere is the leaky rectifier, entry by entry. -/
theorem leaky_apply {s : Shape} (y : FVec Ideal s .f32) (i : s.Idx) :
    select (cmpf .oge y (broadcast s (Scalar.ofBits (F := Ideal) .f32 0x00000000#32))) y
        (mulf (broadcast s (Scalar.ofBits (F := Ideal) .f32 0x3C23D70A#32)) y) i = Cert.Spec.leaky (y i) := by
  rw [select_apply, cmpf_apply, mulf_apply, broadcast_apply, broadcast_apply]
  show Scalar.select (Ideal.cmp .oge (y i) (Ideal.ofBits .f32 0x00000000#32)) (y i) (Ideal.ofBits .f32 0x3C23D70A#32 * y i) = _
  rw [Ideal.ofBits_zero_f32]
  have e : Ideal.cmp .oge (y i) 0 = BitVec.ofBool (decide ((0 : EReal) ≤ y i)) := rfl
  unfold Cert.Spec.leaky Cert.Spec.slope
  by_cases h : (0 : EReal) ≤ y i
  · rw [e, decide_eq_true h, if_pos h]; exact select_one _ _
  · rw [e, decide_eq_false h, if_neg h]; exact select_zero _ _

theorem col_apply (v : FVec Ideal S5000x1 .f32) (p : Fin 5000) (k : Fin 128) :
    broadcastTo S5000x128 v broadcasts_S5000x1_S5000x128 (ix2 p k) = v (ix2 p 0) :=
  broadcastTo_apply v _ (ix2 p k) (ix2 p 0) fun a => by
    match a with
    | ⟨0, _⟩ => rfl
    | ⟨1, _⟩ => rfl

theorem hz2 : (![0, 0] : Fin 2 → Nat) = fun _ => 0 := funext fun a => by fin_cases a <;> rfl

/-- Entry (0, p, k) of the slab at offset o along the leading axis of a [2, 5000, 128] block is the block's entry (o, p, k). -/
theorem half_idx (o : ℕ) (inb) (h : Fin 2) (ho : h.val = o) (p : Fin 5000) (k : Fin 128) :
    (Rect.unit (s := S2x5000x128) ![o, 0, 0] S1x5000x128.size inb).idx (ix3 (0 : Fin 1) p k) = ix3 h p k := by
  funext a; apply Fin.ext
  match a with
  | ⟨0, _⟩ => show o + 1 * 0 = h.val; omega
  | ⟨1, _⟩ => show 0 + 1 * p.val = p.val; omega
  | ⟨2, _⟩ => show 0 + 1 * k.val = k.val; omega

/-- Entry (p, j) of the dense step of six blocks. -/
theorem out_apply (x0 x1 : Vec Ideal S2x5000x128 .f32) (x2 : Vec Ideal S5000x128 .f32) (x3 x4 : Vec Ideal S128x128 .f32)
    (x5 : Vec Ideal S1x128 .f32) (p : Fin 5000) (j : Fin 128) :
    out3_6 (F := Ideal) x0 x1 x2 x3 x4 x5 (ix2 p j)
      = Cert.Spec.leaky ((∑ k : Fin 128, Ideal.div (x0 (ix3 0 p k) + x0 (ix3 1 p k))
              (max (x1 (ix3 0 p 0) + x1 (ix3 1 p 0)) 1) * x3 (ix2 k j))
          + (∑ k : Fin 128, x2 (ix2 p k) * x4 (ix2 k j)) + x5 (ix2 0 j)) := by
  unfold out3_6
  rw [View.canon_unit_zero hz2]
  simp only [View.ld_unit_zero (S := S128x128) hz2, View.ld_unit_zero (S := S5000x128) hz2,
    View.ld_unit_zero (S := S1x128) hz2]
  unfold k3_pay1
  rw [leaky_apply]
  congr 1
  rw [addf_apply, addf_apply, mm_apply, mm_apply, broadcastTo_1b_ab_apply, shapeCast_self]
  congr 2
  refine Finset.sum_congr rfl fun k _ => ?_
  rw [divf_apply, addf_apply, col_apply, maximumf_apply, broadcast_apply,
    slice2_axis1_apply 0 _ _ p (0 : Fin 1) (0 : Fin 128) rfl, addf_apply,
    shapeCast_1ab_ab_apply, shapeCast_1ab_ab_apply, shapeCast_1ab_ab_apply, shapeCast_1ab_ab_apply]
  show Ideal.div _ (max _ (Ideal.ofBits .f32 0x3F800000#32)) * _ = _
  rw [Ideal.ofBits_one_f32]
  simp only [View.ld, half_idx 0 _ 0 rfl, half_idx 1 _ 1 rfl]

/-- `e` places a block of extents `sz` at block index `b`: on every axis the index times the extent plus the entry's coordinate. -/
def At {r : ℕ} {sz SZ : Fin r → ℕ} (e : (⟨r, sz⟩ : Shape).Idx → (⟨r, SZ⟩ : Shape).Idx) (b : Fin r → ℕ) : Prop :=
  ∀ y a, (e y a).val = b a * sz a + 1 * (y a).val

/-- Placed at block index 0 on both axes, an entry keeps its coordinates. -/
theorem At.id2 {m n : ℕ} {e : (⟨2, ![m, n]⟩ : Shape).Idx → (⟨2, ![m, n]⟩ : Shape).Idx} (he : At e ![0, 0])
    (y : (⟨2, ![m, n]⟩ : Shape).Idx) : e y = y :=
  funext fun a => Fin.ext (by
    match a with
    | ⟨0, _⟩ => exact (he y 0).trans (by show 0 * m + 1 * (y 0).val = (y 0).val; omega)
    | ⟨1, _⟩ => exact (he y 1).trans (by show 0 * n + 1 * (y 1).val = (y 1).val; omega))

/-- Row p of the block at row index n is row 5000 n + p of the array. -/
theorem At.row2 {n : ℕ} {e : S5000x128.Idx → S50000x128.Idx} (he : At e ![n, 0]) (p : Fin 5000) (k : Fin 128)
    (r : Fin 50000) (hr : r.val = n * 5000 + p.val) : e (ix2 p k) = ix2 r k :=
  funext fun a => Fin.ext (by
    match a with
    | ⟨0, _⟩ => exact (he _ 0).trans (by show n * 5000 + 1 * p.val = r.val; omega)
    | ⟨1, _⟩ => exact (he _ 1).trans (by show 0 * 128 + 1 * k.val = k.val; omega))

theorem At.row3 {n : ℕ} {e : S2x5000x128.Idx → S2x50000x128.Idx} (he : At e ![0, n, 0]) (h : Fin 2) (p : Fin 5000)
    (k : Fin 128) (r : Fin 50000) (hr : r.val = n * 5000 + p.val) : e (ix3 h p k) = ix3 h r k :=
  funext fun a => Fin.ext (by
    match a with
    | ⟨0, _⟩ => exact (he _ 0).trans (by show 0 * 2 + 1 * h.val = h.val; omega)
    | ⟨1, _⟩ => exact (he _ 1).trans (by show n * 5000 + 1 * p.val = r.val; omega)
    | ⟨2, _⟩ => exact (he _ 2).trans (by show 0 * 128 + 1 * k.val = k.val; omega))

section
variable (A0 A1 : S2x50000x128.Idx → EReal) (A2 : S50000x128.Idx → EReal) (A3 A4 : S128x128.Idx → EReal) (A5 : S1x128.Idx → EReal)
  {n : ℕ} {e0 e1 : S2x5000x128.Idx → S2x50000x128.Idx} {e2 e6 : S5000x128.Idx → S50000x128.Idx}
  {e3 e4 : S128x128.Idx → S128x128.Idx} {e5 : S1x128.Idx → S1x128.Idx}
  (h0 : At e0 ![0, n, 0]) (h1 : At e1 ![0, n, 0]) (h2 : At e2 ![n, 0]) (h3 : At e3 ![0, 0]) (h4 : At e4 ![0, 0]) (h5 : At e5 ![0, 0])

/-- The dense step of six arrays, as one array. -/
def G : S50000x128.Idx → EReal := fun i =>
  Cert.Spec.combine (fun h r k => A0 (ix3 h r k)) (fun h r k => A1 (ix3 h r k)) (fun r k => A2 (ix2 r k))
    (fun k j => A3 (ix2 k j)) (fun k j => A4 (ix2 k j)) (fun j => A5 (ix2 0 j)) (i 0) (i 1)

include h0 h1 h2 h3 h4 h5

/-- Row p of the dense step of the blocks at row index n is row r = 5000 n + p of the dense step of the arrays. -/
theorem tile (p : Fin 5000) (r : Fin 50000) (hr : r.val = n * 5000 + p.val) (j : Fin 128) :
    out3_6 (F := Ideal) (fun y => A0 (e0 y)) (fun y => A1 (e1 y)) (fun y => A2 (e2 y)) (fun y => A3 (e3 y))
        (fun y => A4 (e4 y)) (fun y => A5 (e5 y)) (ix2 p j)
      = G A0 A1 A2 A3 A4 A5 (ix2 r j) := by
  rw [out_apply]
  simp only [h0.row3 _ p _ r hr, h1.row3 _ p _ r hr, h2.row2 p _ r hr, h3.id2, h4.id2, h5.id2]
  rfl

theorem tileG (h6 : At e6 ![n, 0]) (y : S5000x128.Idx) :
    out3_6 (F := Ideal) (fun y => A0 (e0 y)) (fun y => A1 (e1 y)) (fun y => A2 (e2 y)) (fun y => A3 (e3 y))
        (fun y => A4 (e4 y)) (fun y => A5 (e5 y)) y
      = G A0 A1 A2 A3 A4 A5 (e6 y) := by
  obtain ⟨p, j, rfl⟩ : ∃ (p : Fin 5000) (j : Fin 128), y = ix2 p j := ⟨y 0, y 1, eq_ix2 y⟩
  have hr := (h6 (ix2 p j) 0).trans (show n * 5000 + 1 * p.val = n * 5000 + p.val by omega)
  rw [tile A0 A1 A2 A3 A4 A5 h0 h1 h2 h3 h4 h5 p _ hr j, ← h6.row2 p j _ hr]

end

/-- Every row of the 50000 lies in one of the ten blocks of 5000 rows. -/
theorem cover_rows (i : S50000x128.Idx) : ∃ n : Fin 10, ∀ a : Fin 2,
    ![n.val, 0] a * S5000x128.size a ≤ (i a).val ∧ (i a).val < ![n.val, 0] a * S5000x128.size a + S5000x128.size a := by
  have hi0 : (i 0).val < 50000 := (i 0).isLt
  have hi1 : (i 1).val < 128 := (i 1).isLt
  refine ⟨⟨(i 0).val / 5000, by omega⟩, fun a => ?_⟩
  match a with
  | ⟨0, _⟩ => show (i 0).val / 5000 * 5000 ≤ (i 0).val ∧ (i 0).val < (i 0).val / 5000 * 5000 + 5000; omega
  | ⟨1, _⟩ => show 0 * 128 ≤ (i 1).val ∧ (i 1).val < 0 * 128 + 128; omega

end Cert.KernelIdeal.Dense

end
-- ==== Proof.Combine3.lean ====
import proofs.«420317_j38706245272172_4_alg».proof.Proof.Dense

noncomputable section

open scoped BigOperators

namespace Cert.KernelIdeal.Combine3

open Cert.KernelIdeal Cert.KernelIdeal.Gen Cert.KernelIdeal.Dense Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx : ∀ t : Fin cfg3.N, win3_6.index t = ![t.val, 0] ∧ win3_0.index t = ![0, t.val, 0] ∧ win3_1.index t = ![0, t.val, 0]
    ∧ win3_2.index t = ![t.val, 0] ∧ win3_3.index t = ![0, 0] ∧ win3_4.index t = ![0, 0] ∧ win3_5.index t = ![0, 0] :=
  (by decide +kernel : ∀ t : Fin grid3.N, _)

/-- Block t of the output is block t of the dense step of the six arrays. -/
theorem flushed_eq (c : Dev nD) (t : Fin cfg3.N) :
    (dat3 (F := Ideal) V c).flushed 6 t = ((cfg3.win 6).blk t).view.read (Elt Ideal)
      (G (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  obtain ⟨i6, i0, i1, i2, i3, i4, i5⟩ := idx t
  show (cfg3.win 6).cut (grid3.coords t) ((dat3 V c).after 6 t) = _
  rw [after3_6]
  exact funext (tileG _ _ _ _ _ _ (n := t.val)
    (e0 := ((cfg3.win 0).blk t).view.emb) (e1 := ((cfg3.win 1).blk t).view.emb) (e2 := ((cfg3.win 2).blk t).view.emb)
    (e3 := ((cfg3.win 3).blk t).view.emb) (e4 := ((cfg3.win 4).blk t).view.emb) (e5 := ((cfg3.win 5).blk t).view.emb)
    (e6 := ((cfg3.win 6).blk t).view.emb)
    (i0 ▸ fun _ _ => rfl) (i1 ▸ fun _ _ => rfl) (i2 ▸ fun _ _ => rfl) (i3 ▸ fun _ _ => rfl) (i4 ▸ fun _ _ => rfl)
    (i5 ▸ fun _ _ => rfl) (i6 ▸ fun _ _ => rfl))

theorem cover (i : S50000x128.Idx) : ∃ t : Fin cfg3.N, (cfg3.win 6).flush t = true ∧ i ∈ ((cfg3.win 6).blk t).view.set := by
  obtain ⟨n, hn⟩ := cover_rows i
  let t : Fin cfg3.N := ⟨n.val, n.isLt.trans_eq N_3.symm⟩
  refine ⟨t, flush3_6 t, ?_⟩
  show i ∈ ((View.whole main_v38).slice (win3_6.rect t)).set
  rw [View.set_slice_whole, Rect.mem_set_unit, (idx t).1]
  exact hn

theorem arr (c : Dev nD) (r : Fin 50000) (j : Fin 128) :
    (Gen.dat3 (F := Ideal) V c).arrAt 6 cfg3.N (ix2 r j)
      = Cert.Spec.combine (fun h r k => (V c (Pipeline.arrRef spec3 0) : S2x50000x128.Idx → EReal) (ix3 h r k))
          (fun h r k => (V c (Pipeline.arrRef spec3 1) : S2x50000x128.Idx → EReal) (ix3 h r k))
          (fun r k => (V c (Pipeline.arrRef spec3 2) : S50000x128.Idx → EReal) (ix2 r k))
          (fun k j => (V c (Pipeline.arrRef spec3 3) : S128x128.Idx → EReal) (ix2 k j))
          (fun k j => (V c (Pipeline.arrRef spec3 4) : S128x128.Idx → EReal) (ix2 k j))
          (fun j => (V c (Pipeline.arrRef spec3 5) : S1x128.Idx → EReal) (ix2 0 j)) r j :=
  congrFun ((dat3 V c).arrAt_eq_of_cover 6 _ (fun t _ => flushed_eq V c t) cover) (ix2 r j)

end Cert.KernelIdeal.Combine3

end
-- ==== Proof.Combine5.lean ====
import proofs.«420317_j38706245272172_4_alg».proof.Proof.Dense

noncomputable section

open scoped BigOperators

namespace Cert.KernelIdeal.Combine5

open Cert.KernelIdeal Cert.KernelIdeal.Gen Cert.KernelIdeal.Dense Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx : ∀ t : Fin cfg5.N, win5_6.index t = ![t.val, 0] ∧ win5_0.index t = ![0, t.val, 0] ∧ win5_1.index t = ![0, t.val, 0]
    ∧ win5_2.index t = ![t.val, 0] ∧ win5_3.index t = ![0, 0] ∧ win5_4.index t = ![0, 0] ∧ win5_5.index t = ![0, 0] :=
  (by decide +kernel : ∀ t : Fin grid5.N, _)

/-- Block t of the output is block t of the dense step of the six arrays. -/
theorem flushed_eq (c : Dev nD) (t : Fin cfg5.N) :
    (dat5 (F := Ideal) V c).flushed 6 t = ((cfg5.win 6).blk t).view.read (Elt Ideal)
      (G (V c (Pipeline.arrRef spec5 0)) (V c (Pipeline.arrRef spec5 1)) (V c (Pipeline.arrRef spec5 2))
        (V c (Pipeline.arrRef spec5 3)) (V c (Pipeline.arrRef spec5 4)) (V c (Pipeline.arrRef spec5 5))) := by
  obtain ⟨i6, i0, i1, i2, i3, i4, i5⟩ := idx t
  show (cfg5.win 6).cut (grid5.coords t) ((dat5 V c).after 6 t) = _
  rw [after5_6]
  exact funext (tileG _ _ _ _ _ _ (n := t.val)
    (e0 := ((cfg5.win 0).blk t).view.emb) (e1 := ((cfg5.win 1).blk t).view.emb) (e2 := ((cfg5.win 2).blk t).view.emb)
    (e3 := ((cfg5.win 3).blk t).view.emb) (e4 := ((cfg5.win 4).blk t).view.emb) (e5 := ((cfg5.win 5).blk t).view.emb)
    (e6 := ((cfg5.win 6).blk t).view.emb)
    (i0 ▸ fun _ _ => rfl) (i1 ▸ fun _ _ => rfl) (i2 ▸ fun _ _ => rfl) (i3 ▸ fun _ _ => rfl) (i4 ▸ fun _ _ => rfl)
    (i5 ▸ fun _ _ => rfl) (i6 ▸ fun _ _ => rfl))

theorem cover (i : S50000x128.Idx) : ∃ t : Fin cfg5.N, (cfg5.win 6).flush t = true ∧ i ∈ ((cfg5.win 6).blk t).view.set := by
  obtain ⟨n, hn⟩ := cover_rows i
  let t : Fin cfg5.N := ⟨n.val, n.isLt.trans_eq N_5.symm⟩
  refine ⟨t, flush5_6 t, ?_⟩
  show i ∈ ((View.whole main_v43).slice (win5_6.rect t)).set
  rw [View.set_slice_whole, Rect.mem_set_unit, (idx t).1]
  exact hn

theorem arr (c : Dev nD) (r : Fin 50000) (j : Fin 128) :
    (Gen.dat5 (F := Ideal) V c).arrAt 6 cfg5.N (ix2 r j)
      = Cert.Spec.combine (fun h r k => (V c (Pipeline.arrRef spec5 0) : S2x50000x128.Idx → EReal) (ix3 h r k))
          (fun h r k => (V c (Pipeline.arrRef spec5 1) : S2x50000x128.Idx → EReal) (ix3 h r k))
          (fun r k => (V c (Pipeline.arrRef spec5 2) : S50000x128.Idx → EReal) (ix2 r k))
          (fun k j => (V c (Pipeline.arrRef spec5 3) : S128x128.Idx → EReal) (ix2 k j))
          (fun k j => (V c (Pipeline.arrRef spec5 4) : S128x128.Idx → EReal) (ix2 k j))
          (fun j => (V c (Pipeline.arrRef spec5 5) : S1x128.Idx → EReal) (ix2 0 j)) r j :=
  congrFun ((dat5 V c).arrAt_eq_of_cover 6 _ (fun t _ => flushed_eq V c t) cover) (ix2 r j)

end Cert.KernelIdeal.Combine5

end
-- ==== Proof.Head7.lean ====
import proofs.«420317_j38706245272172_4_alg».proof.Proof.Dense

noncomputable section

open scoped BigOperators

namespace Cert.KernelIdeal.Head7

open Cert.KernelIdeal Cert.KernelIdeal.Gen Cert.KernelIdeal.Dense Idealize.ShloMosaic Idealize.ShloMosaic.TcCoe Idealize.ShloMosaic.ValueIdx Idealize.SL.Sem
open Idealize.ShloMosaic.Pipeline (Dat)

/-- The product with the head's weights plus its bias, at an entry. -/
theorem pay1_apply (v30 : FVec Ideal S5000x128 .f32) (v31 : Vec Ideal S128x128 .f32) (v34 : Vec Ideal S1x128 .f32) (p : Fin 5000) (o : Fin 128) :
    k7_pay1 (F := Ideal) v30 v31 v34 (ix2 p o) = (∑ k : Fin 128, v30 (ix2 p k) * v31 (ix2 k o)) + v34 (ix2 0 o) := by
  unfold k7_pay1
  rw [addf_apply, shapeCast_self, shapeCast_self, mm_apply, broadcastTo_1b_ab_apply]

/-- The last dense step is a layer's: the two differ by a reshape to the same shape. -/
theorem pay2_eq (v0 v2 v5 v7 : Vec Ideal S1x5000x128 .f32) (v15 : Vec Ideal S128x128 .f32) (v17 : Vec Ideal S5000x128 .f32)
    (v19 : Vec Ideal S128x128 .f32) (v22 : Vec Ideal S1x128 .f32) :
    k7_pay2 (F := Ideal) v0 v2 v5 v7 v15 v17 v19 v22 = k3_pay1 v0 v2 v5 v7 v15 v17 v19 v22 := by
  simp only [k7_pay2, k3_pay1, shapeCast_self]

/-- The head of eight blocks: the dense step of the first six, times the seventh, plus the eighth. -/
theorem out_eq (x0 x1 : Vec Ideal S2x5000x128 .f32) (x2 : Vec Ideal S5000x128 .f32) (x3 x4 : Vec Ideal S128x128 .f32)
    (x5 : Vec Ideal S1x128 .f32) (x6 : Vec Ideal S128x128 .f32) (x7 : Vec Ideal S1x128 .f32) :
    out7_8 (F := Ideal) x0 x1 x2 x3 x4 x5 x6 x7 = k7_pay1 (out3_6 x0 x1 x2 x3 x4 x5) x6 x7 := by
  unfold out7_8 out3_6
  rw [View.canon_unit_zero hz2, View.canon_unit_zero hz2]
  simp only [View.ld_unit_zero (S := S128x128) hz2, View.ld_unit_zero (S := S1x128) hz2, pay2_eq]

section
variable (A0 A1 : S2x50000x128.Idx → EReal) (A2 : S50000x128.Idx → EReal) (A3 A4 : S128x128.Idx → EReal) (A5 : S1x128.Idx → EReal)
  (A6 : S128x128.Idx → EReal) (A7 : S1x128.Idx → EReal)
  {n : ℕ} {e0 e1 : S2x5000x128.Idx → S2x50000x128.Idx} {e2 e8 : S5000x128.Idx → S50000x128.Idx}
  {e3 e4 e6 : S128x128.Idx → S128x128.Idx} {e5 e7 : S1x128.Idx → S1x128.Idx}
  (h0 : At e0 ![0, n, 0]) (h1 : At e1 ![0, n, 0]) (h2 : At e2 ![n, 0]) (h3 : At e3 ![0, 0]) (h4 : At e4 ![0, 0]) (h5 : At e5 ![0, 0])
  (h6 : At e6 ![0, 0]) (h7 : At e7 ![0, 0]) (h8 : At e8 ![n, 0])

/-- The head of eight arrays, as one array. -/
def H : S50000x128.Idx → EReal := fun i =>
  Cert.Spec.head (fun h r k => A0 (ix3 h r k)) (fun h r k => A1 (ix3 h r k)) (fun r k => A2 (ix2 r k))
    (fun k j => A3 (ix2 k j)) (fun k j => A4 (ix2 k j)) (fun j => A5 (ix2 0 j)) (fun k o => A6 (ix2 k o)) (fun o => A7 (ix2 0 o)) (i 0) (i 1)

include h0 h1 h2 h3 h4 h5 h6 h7 h8

/-- The head of the blocks at row index n is the block at n of the head of the arrays. -/
theorem tileH (y : S5000x128.Idx) :
    out7_8 (F := Ideal) (fun y => A0 (e0 y)) (fun y => A1 (e1 y)) (fun y => A2 (e2 y)) (fun y => A3 (e3 y))
        (fun y => A4 (e4 y)) (fun y => A5 (e5 y)) (fun y => A6 (e6 y)) (fun y => A7 (e7 y)) y
      = H A0 A1 A2 A3 A4 A5 A6 A7 (e8 y) := by
  obtain ⟨p, o, rfl⟩ : ∃ (p : Fin 5000) (o : Fin 128), y = ix2 p o := ⟨y 0, y 1, eq_ix2 y⟩
  have hr := (h8 (ix2 p o) 0).trans (show n * 5000 + 1 * p.val = n * 5000 + p.val by omega)
  rw [out_eq, pay1_apply, h8.row2 p o _ hr]
  simp only [tile A0 A1 A2 A3 A4 A5 h0 h1 h2 h3 h4 h5 p _ hr, h6.id2, h7.id2]
  rfl

end

section Arrays

variable (V : (c : Dev nD) → (b : Ref sig .tc) → Buf (Elt Ideal) ((c : Thread nD τ).loc b))

theorem idx : ∀ t : Fin cfg7.N, win7_8.index t = ![t.val, 0] ∧ win7_0.index t = ![0, t.val, 0] ∧ win7_1.index t = ![0, t.val, 0]
    ∧ win7_2.index t = ![t.val, 0] ∧ win7_3.index t = ![0, 0] ∧ win7_4.index t = ![0, 0] ∧ win7_5.index t = ![0, 0]
    ∧ win7_6.index t = ![0, 0] ∧ win7_7.index t = ![0, 0] :=
  (by decide +kernel : ∀ t : Fin grid7.N, _)

/-- Block t of the output is block t of the head of the eight arrays. -/
theorem flushed_eq (c : Dev nD) (t : Fin cfg7.N) :
    (dat7 (F := Ideal) V c).flushed 8 t = ((cfg7.win 8).blk t).view.read (Elt Ideal)
      (H (V c (Pipeline.arrRef spec7 0)) (V c (Pipeline.arrRef spec7 1)) (V c (Pipeline.arrRef spec7 2))
        (V c (Pipeline.arrRef spec7 3)) (V c (Pipeline.arrRef spec7 4)) (V c (Pipeline.arrRef spec7 5))
        (V c (Pipeline.arrRef spec7 6)) (V c (Pipeline.arrRef spec7 7))) := by
  obtain ⟨i8, i0, i1, i2, i3, i4, i5, i6, i7⟩ := idx t
  show (cfg7.win 8).cut (grid7.coords t) ((dat7 V c).after 8 t) = _
  rw [after7_8]
  exact funext (tileH _ _ _ _ _ _ _ _ (n := t.val)
    (e0 := ((cfg7.win 0).blk t).view.emb) (e1 := ((cfg7.win 1).blk t).view.emb) (e2 := ((cfg7.win 2).blk t).view.emb)
    (e3 := ((cfg7.win 3).blk t).view.emb) (e4 := ((cfg7.win 4).blk t).view.emb) (e5 := ((cfg7.win 5).blk t).view.emb)
    (e6 := ((cfg7.win 6).blk t).view.emb) (e7 := ((cfg7.win 7).blk t).view.emb) (e8 := ((cfg7.win 8).blk t).view.emb)
    (i0 ▸ fun _ _ => rfl) (i1 ▸ fun _ _ => rfl) (i2 ▸ fun _ _ => rfl) (i3 ▸ fun _ _ => rfl) (i4 ▸ fun _ _ => rfl)
    (i5 ▸ fun _ _ => rfl) (i6 ▸ fun _ _ => rfl) (i7 ▸ fun _ _ => rfl) (i8 ▸ fun _ _ => rfl))

theorem cover (i : S50000x128.Idx) : ∃ t : Fin cfg7.N, (cfg7.win 8).flush t = true ∧ i ∈ ((cfg7.win 8).blk t).view.set := by
  obtain ⟨n, hn⟩ := cover_rows i
  let t : Fin cfg7.N := ⟨n.val, n.isLt.trans_eq N_7.symm⟩
  refine ⟨t, flush7_8 t, ?_⟩
  show i ∈ ((View.whole main_v55).slice (win7_8.rect t)).set
  rw [View.set_slice_whole, Rect.mem_set_unit, (idx t).1]
  exact hn

theorem arr (c : Dev nD) (r : Fin 50000) (o : Fin 128) :
    (Gen.dat7 (F := Ideal) V c).arrAt 8 cfg7.N (ix2 r o)
      = Cert.Spec.head (fun h r k => (V c (Pipeline.arrRef spec7 0) : S2x50000x128.Idx → EReal) (ix3 h r k))
          (fun h r k => (V c (Pipeline.arrRef spec7 1) : S2x50000x128.Idx → EReal) (ix3 h r k))
          (fun r k => (V c (Pipeline.arrRef spec7 2) : S50000x128.Idx → EReal) (ix2 r k))
          (fun k j => (V c (Pipeline.arrRef spec7 3) : S128x128.Idx → EReal) (ix2 k j))
          (fun k j => (V c (Pipeline.arrRef spec7 4) : S128x128.Idx → EReal) (ix2 k j))
          (fun j => (V c (Pipeline.arrRef spec7 5) : S1x128.Idx → EReal) (ix2 0 j))
          (fun k o => (V c (Pipeline.arrRef spec7 6) : S128x128.Idx → EReal) (ix2 k o))
          (fun o => (V c (Pipeline.arrRef spec7 7) : S1x128.Idx → EReal) (ix2 0 o)) r o :=
  congrFun ((dat7 (F := Ideal) V c).arrAt_eq_of_cover 8 _ (fun t _ => flushed_eq V c t) cover) (ix2 r o)

end Arrays

end Cert.KernelIdeal.Head7

end
-- ==== Proof.KHost.lean ====
import proofs.«420317_j38706245272172_4_alg».proof.Proof.Gen.KernelIdeal.Launch
import proofs.«420317_j38706245272172_4_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 4096

noncomputable section

namespace Cert.KernelIdeal.KHost

open Idealize.ShloMosaic Idealize.ShloMosaic.TcCoe Idealize.ShloMosaic.ValueIdx
open Cert.KernelIdeal Cert.KernelIdeal.Gen

theorem row_apply (x : S2x1600000.Idx → BitVec 32) (off : Fin 2 → ℕ) (hs : S2x1600000.Slices off S1x1600000)
    (hc : S1x1600000.ShapeCasts S1600000) (a : Fin 2) (h0 : off 0 = a.val) (h1 : off 1 = 0) (e : Fin 1600000) :
    shapeCast S1600000 (extractStridedSlice S1x1600000 off x hs) hc (ix1 e) = x (ix2 a e) := by
  refine (shapeCast_apply _ hc (ix1 e) (ix2 0 e) ?_).trans ?_
  · rw [Shape.rowMajor_val_two, Shape.rowMajor_val_one]
    show 0 * 1600000 + e.val = e.val
    omega
  · refine extractStridedSlice_apply off x hs (ix2 0 e) (ix2 a e) fun b => ?_
    match b with
    | ⟨0, _⟩ => show a.val = off 0 + 0; omega
    | ⟨1, _⟩ => show e.val = off 1 + e.val; omega

theorem half_apply (r : S1600000.Idx → BitVec 32) (o : ℕ) (ho : o + 800000 ≤ 1600000)
    (hs : S1600000.Slices ![o] S800000) (hb : S_.BroadcastsInDim S768 ![])
    (hc : Shape.Concatenates [S800000, S768] S800768 0) (pad : BitVec 32) (q : Fin 800768) :
    concatenate S800768 0
        [⟨S800000, extractStridedSlice S800000 ![o] r hs⟩, ⟨S768, broadcastInDim S768 ![] hb (constantI S_ 32 pad)⟩] hc (ix1 q)
      = if h : q.val < 800000 then r (ix1 ⟨o + q.val, by omega⟩) else pad := by
  by_cases h : q.val < 800000
  · rw [dif_pos h]
    refine (concatenate_pair_apply_left 0 _ _ hc (ix1 q) rfl (ix1 ⟨q.val, h⟩) fun b => ?_).trans ?_
    · match b with
      | ⟨0, _⟩ => rfl
    · refine extractStridedSlice_apply ![o] r hs (ix1 ⟨q.val, h⟩) (ix1 ⟨o + q.val, by omega⟩) fun b => ?_
      match b with
      | ⟨0, _⟩ => rfl
  · rw [dif_neg h]
    have hq := q.isLt
    refine (concatenate_pair_apply_right 0 _ _ hc (ix1 q) rfl rfl (ix1 ⟨q.val - 800000, by omega⟩)
      (fun b hb' => absurd (Subsingleton.elim _ _) hb') ?_).trans ?_
    · show (q.val - 800000) + 800000 = q.val
      omega
    · exact (broadcastInDim_scalar_apply hb _ _).trans rfl

theorem flat_of_halves (r : S1600000.Idx → BitVec 32) (hs0 : S1600000.Slices ![0] S800000)
    (hs1 : S1600000.Slices ![800000] S800000) (hb : S_.BroadcastsInDim S768 ![])
    (hc : Shape.Concatenates [S800000, S768] S800768 0) (hc2 : Shape.Concatenates [S800768, S800768] S1601536 0)
    (pad : BitVec 32) (p : Fin 1601536) :
    concatenate S1601536 0
        [⟨S800768, concatenate S800768 0
            [⟨S800000, extractStridedSlice S800000 ![0] r hs0⟩, ⟨S768, broadcastInDim S768 ![] hb (constantI S_ 32 pad)⟩] hc⟩,
         ⟨S800768, concatenate S800768 0
            [⟨S800000, extractStridedSlice S800000 ![800000] r hs1⟩, ⟨S768, broadcastInDim S768 ![] hb (constantI S_ 32 pad)⟩] hc⟩]
        hc2 (ix1 p)
      = Cert.Spec.flat (fun e => r (ix1 e)) pad p := by
  have hp := p.isLt
  unfold Cert.Spec.flat
  by_cases h1 : p.val < 800768
  · refine (concatenate_pair_apply_left 0 _ _ hc2 (ix1 p) rfl (ix1 ⟨p.val, h1⟩) fun b => ?_).trans ?_
    · match b with
      | ⟨0, _⟩ => rfl
    · refine (half_apply r 0 (by omega) hs0 hb hc pad ⟨p.val, h1⟩).trans ?_
      by_cases h2 : p.val < 800000
      · rw [dif_pos h2, dif_pos h2]
        exact congrArg r (congrArg ix1 (Fin.ext (Nat.zero_add _)))
      · rw [dif_neg h2, dif_neg h2, dif_pos h1]
  · refine (concatenate_pair_apply_right 0 _ _ hc2 (ix1 p) rfl rfl (ix1 ⟨p.val - 800768, by omega⟩)
      (fun b hb' => absurd (Subsingleton.elim _ _) hb') ?_).trans ?_
    · show (p.val - 800768) + 800768 = p.val
      omega
    · refine (half_apply r 800000 (by omega) hs1 hb hc pad ⟨p.val - 800768, by omega⟩).trans ?_
      have h3 : ¬ p.val < 800000 := by omega
      by_cases h2 : p.val < 1600768
      · rw [dif_pos (show p.val - 800768 < 800000 by omega), dif_neg h3, dif_neg h1, dif_pos h2]
        exact congrArg r (congrArg ix1 (Fin.ext (by show 800000 + (p.val - 800768) = p.val - 768; omega)))
      · rw [dif_neg (show ¬ p.val - 800768 < 800000 by omega), dif_neg h3, dif_neg h1, dif_neg h2]

set_option maxHeartbeats 1000000 in

theorem flat_src_u2i (W : Valuation τ sig (Elt Ideal)) (p : Fin 1601536) :
    (StableHlo.after (Gen.hostOps0 (F := Ideal)) W (Proc.devRef .tc main_v18) : S1601536.Idx → BitVec 32) (ix1 p)
      = Cert.Spec.flat (fun e => (W (Proc.devRef .tc main_arg16) : S2x1600000.Idx → BitVec 32) (ix2 0 e)) 0#32 p := by
  delta Gen.hostOps0
  after_results
  refine (flat_of_halves _ _ _ _ _ _ _ p).trans ?_
  congr 1
  funext e
  exact row_apply _ ![0, 0] _ _ 0 rfl rfl e

set_option maxHeartbeats 1000000 in

theorem flat_dst_u2i (W : Valuation τ sig (Elt Ideal)) (p : Fin 1601536) :
    (StableHlo.after (Gen.hostOps0 (F := Ideal)) W (Proc.devRef .tc main_v19) : S1601536.Idx → BitVec 32) (ix1 p)
      = Cert.Spec.flat (fun e => (W (Proc.devRef .tc main_arg16) : S2x1600000.Idx → BitVec 32) (ix2 1 e)) 50000#32 p := by
  delta Gen.hostOps0
  after_results
  refine (flat_of_halves _ _ _ _ _ _ _ p).trans ?_
  congr 1
  funext e
  exact row_apply _ ![1, 0] _ _ 1 rfl rfl e

set_option maxHeartbeats 1000000 in

theorem flat_src_i2u (W : Valuation τ sig (Elt Ideal)) (p : Fin 1601536) :
    (StableHlo.after (Gen.hostOps0 (F := Ideal)) W (Proc.devRef .tc main_v30) : S1601536.Idx → BitVec 32) (ix1 p)
      = Cert.Spec.flat (fun e => (W (Proc.devRef .tc main_arg17) : S2x1600000.Idx → BitVec 32) (ix2 0 e)) 0#32 p := by
  delta Gen.hostOps0
  after_results
  refine (flat_of_halves _ _ _ _ _ _ _ p).trans ?_
  congr 1
  funext e
  exact row_apply _ ![0, 0] _ _ 0 rfl rfl e

set_option maxHeartbeats 1000000 in

theorem flat_dst_i2u (W : Valuation τ sig (Elt Ideal)) (p : Fin 1601536) :
    (StableHlo.after (Gen.hostOps0 (F := Ideal)) W (Proc.devRef .tc main_v31) : S1601536.Idx → BitVec 32) (ix1 p)
      = Cert.Spec.flat (fun e => (W (Proc.devRef .tc main_arg17) : S2x1600000.Idx → BitVec 32) (ix2 1 e)) 50000#32 p := by
  delta Gen.hostOps0
  after_results
  refine (flat_of_halves _ _ _ _ _ _ _ p).trans ?_
  congr 1
  funext e
  exact row_apply _ ![1, 0] _ _ 1 rfl rfl e

end Cert.KernelIdeal.KHost

end
-- ==== Proof.KHostTake.lean ====
import proofs.«420317_j38706245272172_4_alg».proof.Proof.Gen.KernelIdeal.Launch
import proofs.«420317_j38706245272172_4_alg».proof.Proof.Spec
import proofs.«420317_j38706245272172_4_alg».proof.Proof.LibRowOps
import Idealize.ShloMosaic.Lib.StableHlo.Run
import Idealize.ShloMosaic.Lib.Pipeline.Value
import Idealize.ShloMosaic.Lib.Pipeline.Frame
import Idealize.ShloMosaic.Lib.ValueIdx
import Idealize.ShloMosaic.Lib.ValueLayout
import Idealize.ShloMosaic.Lib.IdealHost
import Idealize.ShloMosaic.Lib.Affine

set_option maxRecDepth 4096

noncomputable section

namespace Cert.KernelIdeal.KHost

open Idealize.ShloMosaic Idealize.ShloMosaic.TcCoe Idealize.ShloMosaic.ValueIdx
open Cert.KernelIdeal Cert.KernelIdeal.Gen

theorem fold_fin_one {α : Type} (op : α → α → α) [Std.Commutative op] [Std.Associative op] (b : α) {n : ℕ} (hn : n = 1)
    (f : Fin n → α) : (Finset.univ : Finset (Fin n)).fold op b f = op (f ⟨0, by omega⟩) b := by
  subst hn
  rw [Finset.univ_unique, Finset.fold_singleton]
  rfl

/-- The index column of a row read: each source word, shifted up by the number of nodes when negative. -/
def idxCol (v : S1601536.Idx → BitVec 32) : S1601536x1.Idx → BitVec 32 :=
  broadcastInDim S1601536x1 ![0] bcast_S1601536_S1601536x1_0
    (select (cmpi .slt v (broadcastInDim S1601536 ![] bcast_S_S1601536 (constantI S_ 32 0#32)))
      (addi v (broadcastInDim S1601536 ![] bcast_S_S1601536 (constantI S_ 32 50000#32))) v)

theorem idxCol_apply (v : S1601536.Idx → BitVec 32) (p : Fin 1601536) : idxCol v (ix2 p 0) = Cert.Spec.wrap (v (ix1 p)) := by
  refine (broadcastInDim_apply ![0] bcast_S1601536_S1601536x1_0 _ (ix2 p 0) (ix1 p) fun a => ?_).trans ?_
  · match a with
    | ⟨0, _⟩ =>
      show p.val = if (1601536 : ℕ) = 1 then 0 else p.val
      rw [if_neg (by decide)]
  · show Scalar.select (IntOp.cmpi .slt (v (ix1 p)) (broadcastInDim S1601536 ![] bcast_S_S1601536 (constantI S_ 32 0#32) (ix1 p)))
        (IntOp.addi (v (ix1 p)) (broadcastInDim S1601536 ![] bcast_S_S1601536 (constantI S_ 32 50000#32) (ix1 p))) (v (ix1 p)) = _
    rw [broadcastInDim_scalar_apply, broadcastInDim_scalar_apply]
    show Scalar.select (IntOp.cmpi .slt (v (ix1 p)) 0#32) (v (ix1 p) + 50000#32) (v (ix1 p)) = _
    have h0 : (0#32 : BitVec 32).toInt = 0 := by decide
    unfold Cert.Spec.wrap
    by_cases hs : (v (ix1 p)).toInt < 0
    · have h1 : IntOp.cmpi .slt (v (ix1 p)) 0#32 = 1#1 := IntOp.cmpi_slt.mpr (by rw [h0]; exact hs)
      rw [if_pos hs, h1, select_one]
    · have h1 : IntOp.cmpi .slt (v (ix1 p)) 0#32 = 0#1 :=
        eq_zero_of_ne_one fun h => hs (by have := IntOp.cmpi_slt.mp h; rwa [h0] at this)
      rw [if_neg hs, h1, select_zero]

theorem hi_apply (hb1 : S1.BroadcastsInDim S1x1 ![1]) (hb2 : S1x1.BroadcastsInDim S1601536x1 ![0, 1]) (p : Fin 1601536) :
    broadcastInDim S1601536x1 ![0, 1] hb2 (broadcastInDim S1x1 ![1] hb1 (constantI S1 32 49999#32)) (ix2 p 0) = 49999#32 := by
  refine (broadcastInDim_apply ![0, 1] hb2 _ (ix2 p 0) (ix2 0 0) fun a => ?_).trans
    ((broadcastInDim_apply ![1] hb1 _ (ix2 0 0) (ix1 0) fun a => ?_).trans rfl)
  · match a with
    | ⟨0, _⟩ => exact (if_pos rfl).symm
    | ⟨1, _⟩ => exact (if_pos rfl).symm
  · match a with
    | ⟨0, _⟩ => exact (if_pos rfl).symm

/-- Over an axis of extent one the range test's reduction is the one element under it. -/
theorem inRange_apply (V5 Z N : S1601536x1.Idx → BitVec 32) (p : Fin 1601536) (hZ : Z (ix2 p 0) = 0#32)
    (hN : N (ix2 p 0) = 49999#32) (hr : S1601536x1.ReducesTo [1] S1601536) (hu : 0 < S_.numel) :
    Host.reduce IntOp.andi (andi (cmpi .sge V5 Z) (cmpi .sle V5 N)) (constantI S_ 1 1#1) hr hu (ix1 p) = 1#1
      ↔ 0 ≤ (V5 (ix2 p 0)).toInt ∧ (V5 (ix2 p 0)).toInt ≤ 49999 := by
  have hR : S1601536x1.Reduces [1] S1601536 := by decide
  have h0 : (0#32 : BitVec 32).toInt = 0 := by decide
  have h1 : (49999#32 : BitVec 32).toInt = 49999 := by decide
  have hl : hR.lift (ix1 p) ⟨0, by decide⟩ = ix2 p 0 := by
    funext c
    apply Fin.ext
    show hR.liftVal (ix1 p) 0 c = _
    unfold Shape.Reduces.liftVal
    match c with
    | ⟨0, _⟩ => rfl
    | ⟨1, _⟩ => rfl
  rw [Host.reduce_eq_fold_single IntOp.andi _ _ hr hR hu (ix1 p), fold_fin_one IntOp.andi _ (n := S1601536x1.size 1) rfl, Function.comp_apply, hl]
  show IntOp.andi (IntOp.andi (IntOp.cmpi .sge (V5 (ix2 p 0)) (Z (ix2 p 0))) (IntOp.cmpi .sle (V5 (ix2 p 0)) (N (ix2 p 0)))) 1#1 = _ ↔ _
  rw [hZ, hN, IntOp.andi_eq_one, and_iff_left rfl, IntOp.andi_eq_one, IntOp.cmpi_sge, IntOp.cmpi_sle, h0, h1]

theorem take_apply (x : S50000x128.Idx → EReal) (V5 : S1601536x1.Idx → BitVec 32) (s : BitVec 32) (p : Fin 1601536)
    (d : Fin 128) (hV5 : V5 (ix2 p 0) = Cert.Spec.wrap s) (m : S1601536.Idx → BitVec 1)
    (hm : m (ix1 p) = 1#1 ↔ 0 ≤ (V5 (ix2 p 0)).toInt ∧ (V5 (ix2 p 0)).toInt ≤ 49999)
    (hbm : S1601536.BroadcastsInDim S1601536x128 ![0]) (hbf : S_.BroadcastsInDim S1601536x128 ![])
    (gd : GatherDims S50000x128 S1601536x1 S1601536x128)
    (g1 : gd.offsetDims = [1]) (g2 : gd.collapsedSliceDims = [0]) (g3 : gd.operandBatchingDims = [])
    (g4 : gd.startIndicesBatchingDims = []) (g5 : gd.startIndexMap = [0]) (g6 : gd.indexVectorDim = 1)
    (g7 : gd.sliceSizes = ![1, 128]) :
    select (broadcastInDim S1601536x128 ![0] hbm m) (Host.gather gd x V5)
        (broadcastInDim S1601536x128 ![] hbf (constant (F := Ideal) S_ .f32 0x7FC00000#32)) (ix2 p d)
      = Cert.Spec.takeRow (fun r d => x (ix2 r d)) s d := by
  have e1 : broadcastInDim S1601536x128 ![0] hbm m (ix2 p d) = m (ix1 p) := by
    refine broadcastInDim_apply ![0] hbm m (ix2 p d) (ix1 p) fun a => ?_
    match a with
    | ⟨0, _⟩ =>
      show p.val = if (1601536 : ℕ) = 1 then 0 else p.val
      rw [if_neg (by decide)]
  show Scalar.select (broadcastInDim S1601536x128 ![0] hbm m (ix2 p d)) (Host.gather gd x V5 (ix2 p d))
      (broadcastInDim S1601536x128 ![] hbf (constant (F := Ideal) S_ .f32 0x7FC00000#32) (ix2 p d)) = _
  rw [e1, broadcastInDim_scalar_apply, RowOps.gather_rows_apply (by decide) gd g1 g2 g3 g4 g5 g6 g7 x V5 p d]
  rw [hV5] at hm ⊢
  unfold Cert.Spec.takeRow
  by_cases hr : 0 ≤ (Cert.Spec.wrap s).toInt ∧ (Cert.Spec.wrap s).toInt ≤ 49999
  · rw [if_pos hr, hm.mpr hr, select_one]
    rfl
  · rw [if_neg hr, eq_zero_of_ne_one (fun h => hr (hm.mp h)), select_zero]
    rfl

attribute [local irreducible] Host.reduce Host.gather

/-- A row read's operations over its table x, its source words s and its own buffers, g the range test's reduction and G the indexed read. -/
def takeOps (g : (S1601536x1.Idx → BitVec 1) → (S_.Idx → BitVec 1) → (S1601536.Idx → BitVec 1))
    (G : (S50000x128.Idx → EReal) → (S1601536x1.Idx → BitVec 32) → (S1601536x128.Idx → EReal))
    (x : StableHlo.TRef sig ⟨S50000x128, .f32⟩) (s : StableHlo.TRef sig ⟨S1601536, .i32⟩) (φ : fn_take.Bufs) :
    List (HloOp τ sig (Elt Ideal)) :=
  [ φ.c.nullary (constantI S_ 32 0#32), φ.c.unary φ.v0 (broadcastInDim S1601536 ![] bcast_S_S1601536), s.binary φ.v0 φ.v1 (cmpi .slt),
    φ.c_0.nullary (constantI S_ 32 50000#32), φ.c_0.unary φ.v2 (broadcastInDim S1601536 ![] bcast_S_S1601536), s.binary φ.v2 φ.v3 addi,
    φ.v1.ternary φ.v3 s φ.call0.v0 select, φ.call0.v0.unary φ.v5 (broadcastInDim S1601536x1 ![0] bcast_S1601536_S1601536x1_0),
    φ.c_1.nullary (constantI S1 32 49999#32), φ.c_2.nullary (constantI S_ 32 0#32),
    φ.c_2.unary φ.v6 (broadcastInDim S1601536x1 ![] bcast_S_S1601536x1), φ.v5.binary φ.v6 φ.v7 (cmpi .sge),
    φ.c_1.unary φ.v8 (broadcastInDim S1x1 ![1] bcast_S1_S1x1_1), φ.v8.unary φ.v9 (broadcastInDim S1601536x1 ![0, 1] bcast_S1x1_S1601536x1_0_1),
    φ.v5.binary φ.v9 φ.v10 (cmpi .sle), φ.v7.binary φ.v10 φ.v11 andi, φ.c_3.nullary (constantI S_ 1 1#1), φ.v11.binary φ.c_3 φ.v12 g,
    x.binary φ.v5 φ.v13 G, φ.v12.unary φ.v14 (broadcastInDim S1601536x128 ![0] bcast_S1601536_S1601536x128_0),
    φ.cst.nullary (constant (F := Ideal) S_ .f32 0x7FC00000#32), φ.cst.unary φ.v15 (broadcastInDim S1601536x128 ![] bcast_S_S1601536x128),
    φ.v14.ternary φ.v13 φ.v15 φ.v16 select ]

/-- The program's three row reads: table, source words, own buffers. -/
def calls : List (StableHlo.TRef sig ⟨S50000x128, .f32⟩ × StableHlo.TRef sig ⟨S1601536, .i32⟩ × fn_take.Bufs) :=
  [(.of main_arg1, .of main_v30, main_call0), (.of main_arg0, .of main_v18, main_call1),
   (.of main_v43, .of main_v30, let φ := main_call2
      ⟨φ.c, φ.v0, φ.v1, φ.c_0, φ.v2, φ.v3, φ.call0, φ.v5, φ.c_1, φ.c_2, φ.v6, φ.v7, φ.v8, φ.v9, φ.v10, φ.v11, φ.c_3, φ.v12, φ.v13, φ.v14,
        φ.cst, φ.v15, φ.v16⟩)]

set_option maxHeartbeats 1000000 in
/-- With its two large steps left as any functions a row read is a composition of elementwise operations. -/
theorem after_takeOps (g G) (c) (hc : c ∈ calls) (W : Valuation τ sig (Elt Ideal)) :
    c.2.2.v16.ofBuf (StableHlo.after (takeOps g G c.1 c.2.1 c.2.2) W (Proc.devRef .tc c.2.2.v16.ref))
      = select (broadcastInDim S1601536x128 ![0] bcast_S1601536_S1601536x128_0
            (g (andi (cmpi .sge (idxCol (c.2.1.ofBuf (W (Proc.devRef .tc c.2.1.ref)))) (broadcastInDim S1601536x1 ![] bcast_S_S1601536x1 (constantI S_ 32 0#32)))
                     (cmpi .sle (idxCol (c.2.1.ofBuf (W (Proc.devRef .tc c.2.1.ref)))) (broadcastInDim S1601536x1 ![0, 1] bcast_S1x1_S1601536x1_0_1
                        (broadcastInDim S1x1 ![1] bcast_S1_S1x1_1 (constantI S1 32 49999#32)))))
               (constantI S_ 1 1#1)))
          (G (c.1.ofBuf (W (Proc.devRef .tc c.1.ref))) (idxCol (c.2.1.ofBuf (W (Proc.devRef .tc c.2.1.ref)))))
          (broadcastInDim S1601536x128 ![] bcast_S_S1601536x128 (constant (F := Ideal) S_ .f32 0x7FC00000#32)) := by
  simp only [calls, List.mem_cons, List.not_mem_nil, or_false] at hc
  rcases hc with rfl | rfl | rfl
  all_goals
    dsimp only [takeOps]
    after_results
    simp only [StableHlo.TRef.ofBuf, StableHlo.TRef.toBuf, cast_eq]
    rfl

theorem take (c) (hc : c ∈ calls) (W : Valuation τ sig (Elt Ideal)) (p : Fin 1601536) (d : Fin 128) :
    c.2.2.v16.ofBuf (StableHlo.after (takeOps (fun x v => Host.reduce IntOp.andi x v reducesTo_S1601536x1_S1601536_d1 h_S_)
        (fun x i => Host.gather gather_S50000x128_S1601536x1_S1601536x128_1_0_n_n_0_1_1128 x i) c.1 c.2.1 c.2.2) W
        (Proc.devRef .tc c.2.2.v16.ref)) (ix2 p d)
      = Cert.Spec.takeRow (fun r d => c.1.ofBuf (W (Proc.devRef .tc c.1.ref)) (ix2 r d)) (c.2.1.ofBuf (W (Proc.devRef .tc c.2.1.ref)) (ix1 p)) d :=
  (congrFun (after_takeOps _ _ c hc W) (ix2 p d)).trans
    (take_apply _ _ _ p d (idxCol_apply _ p) _
      (inRange_apply _ _ _ p ((broadcastInDim_scalar_apply _ _ _).trans rfl) (hi_apply _ _ p) _ _) _ _ _ rfl rfl rfl rfl rfl rfl rfl)

end Cert.KernelIdeal.KHost

end
-- ==== Proof.KHostPads.lean ====
import proofs.«420317_j38706245272172_4_alg».proof.Proof.Gen.KernelIdeal.Launch
import proofs.«420317_j38706245272172_4_alg».proof.Proof.Spec
import proofs.«420317_j38706245272172_4_alg».proof.Proof.LibRowOps
import Idealize.ShloMosaic.Lib.StableHlo.Run
import Idealize.ShloMosaic.Lib.ValueLayout
import Idealize.ShloMosaic.Lib.IdealHost

set_option maxRecDepth 4096

noncomputable section

namespace Cert.KernelIdeal.KHostPads

open Idealize.ShloMosaic Idealize.ShloMosaic.TcCoe Idealize.ShloMosaic.ValueIdx
open Cert.KernelIdeal Cert.KernelIdeal.Gen

section Fold
variable {β ι γ : Type}

theorem foldl_keep (g : β → γ) (step : β → ι → β) :
    ∀ (l : List ι) (x : β), (∀ r, ∀ n ∈ l, g (step r n) = g r) → g (l.foldl step x) = g x
  | [], _, _ => rfl
  | a :: l, x, h => by
    rw [List.foldl_cons, foldl_keep g step l _ (fun r n hn => h r n (List.mem_cons_of_mem _ hn)), h x a List.mem_cons_self]

theorem foldl_hit (g : β → γ) (step : β → ι → β) (c : γ) (n₀ : ι) (h₀ : ∀ r, g (step r n₀) = c) :
    ∀ (l : List ι) (x : β), l.Nodup → n₀ ∈ l → (∀ r, ∀ n ∈ l, n ≠ n₀ → g (step r n) = g r) → g (l.foldl step x) = c
  | [], _, _, hm, _ => absurd hm List.not_mem_nil
  | a :: l, x, hnd, hm, h => by
    rw [List.foldl_cons]
    by_cases ha : a = n₀
    · subst ha
      have hnot : a ∉ l := (List.nodup_cons.1 hnd).1
      rw [foldl_keep g step l _ (fun r n hn => h r n (List.mem_cons_of_mem _ hn) (fun e => hnot (e ▸ hn)))]
      exact h₀ x
    · have hm' : n₀ ∈ l := by
        rcases List.mem_cons.1 hm with e | e
        · exact absurd e.symm ha
        · exact e
      exact foldl_hit g step c n₀ h₀ l _ (List.nodup_cons.1 hnd).2 hm' (fun r n hn => h r n (List.mem_cons_of_mem _ hn))

end Fold

section ScatterSet
variable {α : Type} {s si u : Shape} {w : Nat}

theorem scatter_set_off (d : ScatterDims s si u) (x : s.Idx → α) (idx : IVec si w) (upd : u.Idx → α)
    (i : s.Idx) (hi : ∀ j, d.resultIdx? j idx ≠ some i) : Host.scatter d (fun _ b => b) x idx upd i = x i := by
  unfold Host.scatter
  refine foldl_keep (fun r : s.Idx → α => r i) _ _ x (fun r n _ => ?_)
  have hn := hi (u.rowMajor.symm n)
  dsimp only
  generalize d.resultIdx? (u.rowMajor.symm n) idx = o at hn ⊢
  cases o with
  | none => rfl
  | some k => exact if_neg (fun e => hn (congrArg some e.symm))

theorem scatter_set_at (d : ScatterDims s si u) (x : s.Idx → α) (idx : IVec si w) (upd : u.Idx → α)
    (emb : u.Idx → s.Idx) (hemb : Function.Injective emb) (hl : ∀ j, d.resultIdx? j idx = some (emb j)) (j : u.Idx) :
    Host.scatter d (fun _ b => b) x idx upd (emb j) = upd j := by
  unfold Host.scatter
  refine foldl_hit (fun r : s.Idx → α => r (emb j)) _ (upd j) (u.rowMajor j) (fun r => ?_) _ x (List.nodup_finRange _)
    (List.mem_finRange _) (fun r n _ hn => ?_)
  · dsimp only
    rw [Equiv.symm_apply_apply, hl]
    exact if_pos rfl
  · dsimp only
    rw [hl]
    refine if_neg (fun e => hn ?_)
    rw [hemb e, Equiv.apply_symm_apply]

end ScatterSet

abbrev colsDims (M N K : Nat) (wf : ScatterDims.WF ⟨2, ![M, N]⟩ ⟨1, ![1]⟩ ⟨2, ![M, K]⟩ [0, 1] [] [1] 0) :
    ScatterDims ⟨2, ![M, N]⟩ ⟨1, ![1]⟩ ⟨2, ![M, K]⟩ where
  updateWindowDims := [0, 1]
  insertedWindowDims := []
  scatterDimsToOperandDims := [1]
  indexVectorDim := 0
  wf := wf

section Cols
variable {M N K : Nat} (wf : ScatterDims.WF ⟨2, ![M, N]⟩ ⟨1, ![1]⟩ ⟨2, ![M, K]⟩ [0, 1] [] [1] 0)

theorem cols_start_0 (idx : IVec ⟨1, ![1]⟩ 32) (j : (⟨2, ![M, K]⟩ : Shape).Idx) : (colsDims M N K wf).start j idx 0 = 0 := by
  unfold ScatterDims.start
  rw [dif_neg (show ¬ (0 : Fin (⟨2, ![M, N]⟩ : Shape).rank) ∈ (colsDims M N K wf).scatterDimsToOperandDims from
    fun h => absurd (List.mem_singleton.mp h) (show (0 : Fin 2) ≠ 1 by decide))]

theorem cols_start_1 (idx : IVec ⟨1, ![1]⟩ 32) (hidx : ∀ q, (idx q).toInt = 0) (j : (⟨2, ![M, K]⟩ : Shape).Idx) :
    (colsDims M N K wf).start j idx 1 = 0 := by
  unfold ScatterDims.start
  rw [dif_pos (show (1 : Fin (⟨2, ![M, N]⟩ : Shape).rank) ∈ (colsDims M N K wf).scatterDimsToOperandDims from List.mem_singleton.mpr rfl)]
  exact hidx _

theorem cols_window_0 (j : (⟨2, ![M, K]⟩ : Shape).Idx) : (colsDims M N K wf).window j 0 = (j 0).val := by
  unfold ScatterDims.window
  rw [dif_pos (by simp [ScatterDims.sKept, Shape.kept, List.mem_filter])]
  rfl

theorem cols_window_1 (j : (⟨2, ![M, K]⟩ : Shape).Idx) : (colsDims M N K wf).window j 1 = (j 1).val := by
  unfold ScatterDims.window
  rw [dif_pos (by simp [ScatterDims.sKept, Shape.kept, List.mem_filter])]
  rfl

def colsEmb (hK : K ≤ N) (j : (⟨2, ![M, K]⟩ : Shape).Idx) : (⟨2, ![M, N]⟩ : Shape).Idx :=
  ix2 ⟨(j 0).val, idx2_lt0 j⟩ ⟨(j 1).val, lt_of_lt_of_le (idx2_lt1 j) hK⟩

theorem colsEmb_inj (hK : K ≤ N) : Function.Injective (colsEmb (M := M) hK) := by
  intro a b e
  have e0 := congrArg Fin.val (congrFun e 0)
  have e1 := congrArg Fin.val (congrFun e 1)
  rw [eq_ix2 a, eq_ix2 b]
  have h0 : a 0 = b 0 := Fin.ext e0
  have h1 : a 1 = b 1 := Fin.ext e1
  rw [h0, h1]

theorem cols_lands (hK : K ≤ N) (idx : IVec ⟨1, ![1]⟩ 32) (hidx : ∀ q, (idx q).toInt = 0) (j : (⟨2, ![M, K]⟩ : Shape).Idx) :
    (colsDims M N K wf).resultIdx? j idx = some (colsEmb hK j) := by
  rw [RowOps.resultIdx?_eq_some_iff]
  intro a
  match a with
  | ⟨0, _⟩ =>
    show (colsDims M N K wf).start j idx 0 + ((colsDims M N K wf).window j 0 : ℤ) = _
    rw [cols_start_0, cols_window_0]
    show (0 : ℤ) + (((j 0).val : ℕ) : ℤ) = (((j 0).val : ℕ) : ℤ)
    simp
  | ⟨1, _⟩ =>
    show (colsDims M N K wf).start j idx 1 + ((colsDims M N K wf).window j 1 : ℤ) = _
    rw [cols_start_1 wf idx hidx, cols_window_1]
    show (0 : ℤ) + (((j 1).val : ℕ) : ℤ) = (((j 1).val : ℕ) : ℤ)
    simp

theorem scatterSet_cols_apply {α : Type} (hK : K ≤ N) (d : ScatterDims ⟨2, ![M, N]⟩ ⟨1, ![1]⟩ ⟨2, ![M, K]⟩)
    (h1 : d.updateWindowDims = [0, 1]) (h2 : d.insertedWindowDims = []) (h3 : d.scatterDimsToOperandDims = [1])
    (h4 : d.indexVectorDim = 0) (x : (⟨2, ![M, N]⟩ : Shape).Idx → α) (idx : IVec ⟨1, ![1]⟩ 32) (hidx : ∀ q, (idx q).toInt = 0)
    (upd : (⟨2, ![M, K]⟩ : Shape).Idx → α) (k : Fin M) (o : Fin N) :
    Host.scatter d (fun _ b => b) x idx upd (ix2 k o) = if h : o.val < K then upd (ix2 k ⟨o.val, h⟩) else x (ix2 k o) := by
  obtain ⟨uw, iw, sd, iv, wf'⟩ := d
  dsimp only at h1 h2 h3 h4
  subst h1 h2 h3 h4
  by_cases h : o.val < K
  · rw [dif_pos h]
    exact scatter_set_at (colsDims M N K wf') x idx upd (colsEmb hK) (colsEmb_inj hK) (cols_lands wf' hK idx hidx) (ix2 k ⟨o.val, h⟩)
  · rw [dif_neg h]
    refine scatter_set_off (colsDims M N K wf') x idx upd _ (fun j e => h ?_)
    rw [cols_lands wf' hK idx hidx j] at e
    have e1 := congrArg Fin.val (congrFun (Option.some.inj e) 1)
    have : (j 1).val = o.val := e1
    have := idx2_lt1 j
    omega

end Cols

abbrev vecDims (N K : Nat) (wf : ScatterDims.WF ⟨1, ![N]⟩ ⟨1, ![1]⟩ ⟨1, ![K]⟩ [0] [] [0] 0) :
    ScatterDims ⟨1, ![N]⟩ ⟨1, ![1]⟩ ⟨1, ![K]⟩ where
  updateWindowDims := [0]
  insertedWindowDims := []
  scatterDimsToOperandDims := [0]
  indexVectorDim := 0
  wf := wf

section Vec
variable {N K : Nat} (wf : ScatterDims.WF ⟨1, ![N]⟩ ⟨1, ![1]⟩ ⟨1, ![K]⟩ [0] [] [0] 0)

theorem vec_start (idx : IVec ⟨1, ![1]⟩ 32) (hidx : ∀ q, (idx q).toInt = 0) (j : (⟨1, ![K]⟩ : Shape).Idx) :
    (vecDims N K wf).start j idx 0 = 0 := by
  unfold ScatterDims.start
  rw [dif_pos (show (0 : Fin (⟨1, ![N]⟩ : Shape).rank) ∈ (vecDims N K wf).scatterDimsToOperandDims from List.mem_singleton.mpr rfl)]
  exact hidx _

theorem vec_window (j : (⟨1, ![K]⟩ : Shape).Idx) : (vecDims N K wf).window j 0 = (j 0).val := by
  unfold ScatterDims.window
  rw [dif_pos (by simp [ScatterDims.sKept, Shape.kept, List.mem_filter])]
  rfl

def vecEmb (hK : K ≤ N) (j : (⟨1, ![K]⟩ : Shape).Idx) : (⟨1, ![N]⟩ : Shape).Idx :=
  ix1 ⟨(j 0).val, lt_of_lt_of_le (show (j 0).val < K from (j 0).isLt) hK⟩

theorem vecEmb_inj (hK : K ≤ N) : Function.Injective (vecEmb hK) := by
  intro a b e
  have e0 := congrArg Fin.val (congrFun e 0)
  rw [eq_ix1 a, eq_ix1 b]
  have h0 : a 0 = b 0 := Fin.ext e0
  rw [h0]

theorem vec_lands (hK : K ≤ N) (idx : IVec ⟨1, ![1]⟩ 32) (hidx : ∀ q, (idx q).toInt = 0) (j : (⟨1, ![K]⟩ : Shape).Idx) :
    (vecDims N K wf).resultIdx? j idx = some (vecEmb hK j) := by
  rw [RowOps.resultIdx?_eq_some_iff]
  intro a
  obtain rfl : a = 0 := Subsingleton.elim _ _
  rw [vec_start wf idx hidx, vec_window]
  show (0 : ℤ) + (((j 0).val : ℕ) : ℤ) = (((j 0).val : ℕ) : ℤ)
  simp

theorem scatterSet_vec_apply {α : Type} (hK : K ≤ N) (d : ScatterDims ⟨1, ![N]⟩ ⟨1, ![1]⟩ ⟨1, ![K]⟩)
    (h1 : d.updateWindowDims = [0]) (h2 : d.insertedWindowDims = []) (h3 : d.scatterDimsToOperandDims = [0])
    (h4 : d.indexVectorDim = 0) (x : (⟨1, ![N]⟩ : Shape).Idx → α) (idx : IVec ⟨1, ![1]⟩ 32) (hidx : ∀ q, (idx q).toInt = 0)
    (upd : (⟨1, ![K]⟩ : Shape).Idx → α) (o : Fin N) :
    Host.scatter d (fun _ b => b) x idx upd (ix1 o) = if h : o.val < K then upd (ix1 ⟨o.val, h⟩) else x (ix1 o) := by
  obtain ⟨uw, iw, sd, iv, wf'⟩ := d
  dsimp only at h1 h2 h3 h4
  subst h1 h2 h3 h4
  by_cases h : o.val < K
  · rw [dif_pos h]
    exact scatter_set_at (vecDims N K wf') x idx upd (vecEmb hK) (vecEmb_inj hK) (vec_lands wf' hK idx hidx) (ix1 ⟨o.val, h⟩)
  · rw [dif_neg h]
    refine scatter_set_off (vecDims N K wf') x idx upd _ (fun j e => h ?_)
    rw [vec_lands wf' hK idx hidx j] at e
    have e0 := congrArg Fin.val (congrFun (Option.some.inj e) 0)
    have : (j 0).val = o.val := e0
    have : (j 0).val < K := (j 0).isLt
    omega

end Vec

theorem toInt_zero32 : (0#32 : BitVec 32).toInt = 0 := by decide

theorem reshape_v37 (W : Valuation τ sig (Elt Ideal)) (j : Fin 128) :
    (StableHlo.after (Gen.hostOps3 (F := Ideal)) W (Proc.devRef .tc main_v37) : S1x128.Idx → EReal) (ix2 0 j)
      = (W (Proc.devRef .tc main_arg7) : S128.Idx → EReal) (ix1 j) := by
  delta Gen.hostOps3
  after_results
  exact shapeCast_a_1a_apply _ _ 0 j

theorem reshape_v42 (W : Valuation τ sig (Elt Ideal)) (j : Fin 128) :
    (StableHlo.after (Gen.hostOps5 (F := Ideal)) W (Proc.devRef .tc main_v42) : S1x128.Idx → EReal) (ix2 0 j)
      = (W (Proc.devRef .tc main_arg4) : S128.Idx → EReal) (ix1 j) := by
  delta Gen.hostOps5
  after_results
  exact shapeCast_a_1a_apply _ _ 0 j

theorem reshape_v47 (W : Valuation τ sig (Elt Ideal)) (j : Fin 128) :
    (StableHlo.after (Gen.hostOps7 (F := Ideal)) W (Proc.devRef .tc main_v47) : S1x128.Idx → EReal) (ix2 0 j)
      = (W (Proc.devRef .tc main_arg13) : S128.Idx → EReal) (ix1 j) := by
  delta Gen.hostOps7
  after_results
  exact shapeCast_a_1a_apply _ _ 0 j

theorem padW_v50 (W : Valuation τ sig (Elt Ideal)) (k o : Fin 128) :
    (StableHlo.after (Gen.hostOps7 (F := Ideal)) W (Proc.devRef .tc main_v50) : S128x128.Idx → EReal) (ix2 k o)
      = Cert.Spec.padW (fun k o => (W (Proc.devRef .tc main_arg14) : S128x64.Idx → EReal) (ix2 k o)) k o := by
  delta Gen.hostOps7
  after_results
  refine (scatterSet_cols_apply (by decide : 64 ≤ 128) scatter_S128x128_S1_S128x64_01_n_1_0 rfl rfl rfl rfl _ _
    (fun q => toInt_zero32) _ k o).trans ?_
  unfold Cert.Spec.padW
  by_cases h : o.val < 64
  · rw [dif_pos h, dif_pos h]
  · rw [dif_neg h, dif_neg h]
    exact Ideal.ofBits_zero_f32

theorem padB_v54 (W : Valuation τ sig (Elt Ideal)) (o : Fin 128) :
    (StableHlo.after (Gen.hostOps7 (F := Ideal)) W (Proc.devRef .tc main_v54) : S1x128.Idx → EReal) (ix2 0 o)
      = Cert.Spec.padB (fun o => (W (Proc.devRef .tc main_arg15) : S64.Idx → EReal) (ix1 o)) o := by
  delta Gen.hostOps7
  after_results
  refine (shapeCast_a_1a_apply _ _ 0 o).trans ?_
  refine (scatterSet_vec_apply (by decide : 64 ≤ 128) scatter_S128_S1_S64_0_n_0_0 rfl rfl rfl rfl _ _
    (fun q => toInt_zero32) _ o).trans ?_
  unfold Cert.Spec.padB
  by_cases h : o.val < 64
  · rw [dif_pos h, dif_pos h]
  · rw [dif_neg h, dif_neg h]
    exact Ideal.ofBits_zero_f32

theorem slice_v56 (W : Valuation τ sig (Elt Ideal)) (r : Fin 50000) (o : Fin 64) :
    (StableHlo.after (Gen.hostOps8 (F := Ideal)) W (Proc.devRef .tc main_v56) : S50000x64.Idx → EReal) (ix2 r o)
      = (W (Proc.devRef .tc main_v55) : S50000x128.Idx → EReal) (ix2 r ⟨o.val, by omega⟩) := by
  delta Gen.hostOps8
  after_results
  exact extractStridedSlice_apply _ _ _ _ _ (fun a => by
    match a with
    | ⟨0, _⟩ => exact (Nat.zero_add _).symm
    | ⟨1, _⟩ => exact (Nat.zero_add _).symm)

end Cert.KernelIdeal.KHostPads

end
-- ==== Proof.KChain.lean ====
import proofs.«420317_j38706245272172_4_alg».proof.Proof.Gen.KernelIdeal.Frame
import proofs.«420317_j38706245272172_4_alg».proof.Proof.Spec
import proofs.«420317_j38706245272172_4_alg».proof.Proof.CntArr0
import proofs.«420317_j38706245272172_4_alg».proof.Proof.CntArr1
import proofs.«420317_j38706245272172_4_alg».proof.Proof.SumArr2
import proofs.«420317_j38706245272172_4_alg».proof.Proof.SumArr4
import proofs.«420317_j38706245272172_4_alg».proof.Proof.SumArr6
import proofs.«420317_j38706245272172_4_alg».proof.Proof.Combine3
import proofs.«420317_j38706245272172_4_alg».proof.Proof.Combine5
import proofs.«420317_j38706245272172_4_alg».proof.Proof.Head7
import proofs.«420317_j38706245272172_4_alg».proof.Proof.KHost
import proofs.«420317_j38706245272172_4_alg».proof.Proof.KHostTake
import proofs.«420317_j38706245272172_4_alg».proof.Proof.KHostPads

set_option maxRecDepth 16384

noncomputable section

namespace Cert.KernelIdeal.KChain

open Idealize.ShloMosaic Idealize.ShloMosaic.TcCoe Idealize.ShloMosaic.ValueIdx
open Cert.KernelIdeal Cert.KernelIdeal.Gen

variable (m : (ℓ : Loc nD τ sig) → Buf (Elt Ideal) ℓ) (ρ : Dev nD → PrngReg)

abbrev L0 : List (Ref sig .tc) :=
  [main_v0, main_v1, main_v2, main_v3, main_v4, main_v5, main_v6, main_v7, main_v8, main_v9, main_v10, main_v11,
   main_c, main_v12, main_c_0, main_v13, main_v14, main_v15, main_v16, main_v17, main_v18, main_v19,
   main_v20, main_v21, main_v22, main_v23, main_c_1, main_v24, main_c_2, main_v25, main_v26, main_v27, main_v28, main_v29,
   main_v30, main_v31]
abbrev L2 : List (Ref sig .tc) :=
  [main_call0_c, main_call0_v0, main_call0_v1, main_call0_c_0, main_call0_v2, main_call0_v3, main_call0_v4,
   main_call0_v5, main_call0_c_1, main_call0_c_2, main_call0_v6, main_call0_v7, main_call0_v8, main_call0_v9, main_call0_v10,
   main_call0_v11, main_call0_c_3, main_call0_v12, main_call0_v13, main_call0_v14, main_call0_cst, main_call0_v15, main_v34]
abbrev L4 : List (Ref sig .tc) :=
  [main_call1_c, main_call1_v0, main_call1_v1, main_call1_c_0, main_call1_v2, main_call1_v3, main_call1_v4,
   main_call1_v5, main_call1_c_1, main_call1_c_2, main_call1_v6, main_call1_v7, main_call1_v8, main_call1_v9, main_call1_v10,
   main_call1_v11, main_call1_c_3, main_call1_v12, main_call1_v13, main_call1_v14, main_call1_cst, main_call1_v15, main_v39]
abbrev L6 : List (Ref sig .tc) :=
  [main_call2_c, main_call2_v0, main_call2_v1, main_call2_c_0, main_call2_v2, main_call2_v3, main_call2_v4,
   main_call2_v5, main_call2_c_1, main_call2_c_2, main_call2_v6, main_call2_v7, main_call2_v8, main_call2_v9, main_call2_v10,
   main_call2_v11, main_call2_c_3, main_call2_v12, main_call2_v13, main_call2_v14, main_call2_cst, main_call2_v15, main_v44]
abbrev L7 : List (Ref sig .tc) :=
  [main_v47, main_cst, main_v48, main_c_3, main_v49, main_v50, main_cst_4, main_v51, main_c_5, main_v52, main_v53, main_v54]

abbrev Wr (ops : List (HloOp τ sig (Elt Ideal))) (L : List (Ref sig .tc)) : Prop :=
  ops.Forall fun op => op.writes ⊆ (L.map (Proc.devRef (τ := τ) .tc)).toFinset

theorem writes : Wr hostOps0 L0 ∧ Wr hostOps2 L2 ∧ Wr hostOps2_1 [main_v35] ∧ Wr hostOps3 [main_v37] ∧ Wr hostOps4 L4 ∧
    Wr hostOps4_1 [main_v40] ∧ Wr hostOps5 [main_v42] ∧ Wr hostOps6 L6 ∧ Wr hostOps6_1 [main_v45] ∧ Wr hostOps7 L7 ∧
    Wr hostOps8 [main_v56] := by
  refine ⟨?_, ?_, ?_, ?_, ?_, ?_, ?_, ?_, ?_, ?_, ?_⟩ <;>
  · simp only [Wr, hostOps0, hostOps2, hostOps2_1, hostOps3, hostOps4, hostOps4_1, hostOps5, hostOps6, hostOps6_1, hostOps7, hostOps8,
      List.Forall, StableHlo.nullary_writes, StableHlo.unary_writes, StableHlo.binary_writes, StableHlo.ternary_writes,
      StableHlo.reshape_writes]
    repeat' apply And.intro
    all_goals exact Finset.singleton_subset_iff.mpr (List.mem_toFinset.mpr (List.mem_map_of_mem (by decide)))

theorem k1 (c : Dev nD) (b : Ref sig .tc) (hb : b ∉ L0) :
    W1 m ρ c (Proc.devRef .tc b) = W0 m ρ c (Proc.devRef .tc b) :=
  StableHlo.after_of_writes_sub _ _ writes.1 hb

theorem k2 (c : Dev nD) (b : Ref sig .tc) (hb : b ≠ main_v32) :
    W2 m ρ c (Proc.devRef .tc b) = W1 m ρ c (Proc.devRef .tc b) := by
  by_cases h : ∃ w, Pipeline.arrRef spec0 w = b
  · obtain ⟨w, rfl⟩ := h
    fin_cases w
    all_goals first
      | exact absurd rfl hb
      | exact (W2_arr m ρ c _).trans (((dat0 (V1 m ρ) c).arrAt_in _ rfl _).trans (A_eq0 (V1 m ρ) c _))
  · exact W2_of_ne m ρ c b fun w e => h ⟨w, e⟩

theorem k3 (c : Dev nD) (b : Ref sig .tc) (hb : b ≠ main_v33) :
    W3 m ρ c (Proc.devRef .tc b) = W2 m ρ c (Proc.devRef .tc b) := by
  by_cases h : ∃ w, Pipeline.arrRef spec1 w = b
  · obtain ⟨w, rfl⟩ := h
    fin_cases w
    all_goals first
      | exact absurd rfl hb
      | exact (W3_arr m ρ c _).trans (((dat1 (V2 m ρ) c).arrAt_in _ rfl _).trans (A_eq1 (V2 m ρ) c _))
  · exact W3_of_ne m ρ c b fun w e => h ⟨w, e⟩

theorem k4 (c : Dev nD) (b : Ref sig .tc) (hb : b ∉ L2) :
    W4 m ρ c (Proc.devRef .tc b) = W3 m ρ c (Proc.devRef .tc b) :=
  StableHlo.after_of_writes_sub _ _ writes.2.1 hb

theorem k5 (c : Dev nD) (b : Ref sig .tc) (hb : b ∉ [main_v35]) :
    W5 m ρ c (Proc.devRef .tc b) = W4 m ρ c (Proc.devRef .tc b) :=
  StableHlo.after_of_writes_sub _ _ writes.2.2.1 hb

theorem k6 (c : Dev nD) (b : Ref sig .tc) (hb : b ≠ main_v36) :
    W6 m ρ c (Proc.devRef .tc b) = W5 m ρ c (Proc.devRef .tc b) := by
  by_cases h : ∃ w, Pipeline.arrRef spec2 w = b
  · obtain ⟨w, rfl⟩ := h
    fin_cases w
    all_goals first
      | exact absurd rfl hb
      | exact (W6_arr m ρ c _).trans (((dat2 (V5 m ρ) c).arrAt_in _ rfl _).trans (A_eq2 (V5 m ρ) c _))
  · exact W6_of_ne m ρ c b fun w e => h ⟨w, e⟩

theorem k7 (c : Dev nD) (b : Ref sig .tc) (hb : b ∉ [main_v37]) :
    W7 m ρ c (Proc.devRef .tc b) = W6 m ρ c (Proc.devRef .tc b) :=
  StableHlo.after_of_writes_sub _ _ writes.2.2.2.1 hb

theorem k8 (c : Dev nD) (b : Ref sig .tc) (hb : b ≠ main_v38) :
    W8 m ρ c (Proc.devRef .tc b) = W7 m ρ c (Proc.devRef .tc b) := by
  by_cases h : ∃ w, Pipeline.arrRef spec3 w = b
  · obtain ⟨w, rfl⟩ := h
    fin_cases w
    all_goals first
      | exact absurd rfl hb
      | exact (W8_arr m ρ c _).trans (((dat3 (V7 m ρ) c).arrAt_in _ rfl _).trans (A_eq3 (V7 m ρ) c _))
  · exact W8_of_ne m ρ c b fun w e => h ⟨w, e⟩

theorem k9 (c : Dev nD) (b : Ref sig .tc) (hb : b ∉ L4) :
    W9 m ρ c (Proc.devRef .tc b) = W8 m ρ c (Proc.devRef .tc b) :=
  StableHlo.after_of_writes_sub _ _ writes.2.2.2.2.1 hb

theorem k10 (c : Dev nD) (b : Ref sig .tc) (hb : b ∉ [main_v40]) :
    W10 m ρ c (Proc.devRef .tc b) = W9 m ρ c (Proc.devRef .tc b) :=
  StableHlo.after_of_writes_sub _ _ writes.2.2.2.2.2.1 hb

theorem k11 (c : Dev nD) (b : Ref sig .tc) (hb : b ≠ main_v41) :
    W11 m ρ c (Proc.devRef .tc b) = W10 m ρ c (Proc.devRef .tc b) := by
  by_cases h : ∃ w, Pipeline.arrRef spec4 w = b
  · obtain ⟨w, rfl⟩ := h
    fin_cases w
    all_goals first
      | exact absurd rfl hb
      | exact (W11_arr m ρ c _).trans (((dat4 (V10 m ρ) c).arrAt_in _ rfl _).trans (A_eq4 (V10 m ρ) c _))
  · exact W11_of_ne m ρ c b fun w e => h ⟨w, e⟩

theorem k12 (c : Dev nD) (b : Ref sig .tc) (hb : b ∉ [main_v42]) :
    W12 m ρ c (Proc.devRef .tc b) = W11 m ρ c (Proc.devRef .tc b) :=
  StableHlo.after_of_writes_sub _ _ writes.2.2.2.2.2.2.1 hb

theorem k13 (c : Dev nD) (b : Ref sig .tc) (hb : b ≠ main_v43) :
    W13 m ρ c (Proc.devRef .tc b) = W12 m ρ c (Proc.devRef .tc b) := by
  by_cases h : ∃ w, Pipeline.arrRef spec5 w = b
  · obtain ⟨w, rfl⟩ := h
    fin_cases w
    all_goals first
      | exact absurd rfl hb
      | exact (W13_arr m ρ c _).trans (((dat5 (V12 m ρ) c).arrAt_in _ rfl _).trans (A_eq5 (V12 m ρ) c _))
  · exact W13_of_ne m ρ c b fun w e => h ⟨w, e⟩

theorem k14 (c : Dev nD) (b : Ref sig .tc) (hb : b ∉ L6) :
    W14 m ρ c (Proc.devRef .tc b) = W13 m ρ c (Proc.devRef .tc b) :=
  StableHlo.after_of_writes_sub _ _ writes.2.2.2.2.2.2.2.1 hb

theorem k15 (c : Dev nD) (b : Ref sig .tc) (hb : b ∉ [main_v45]) :
    W15 m ρ c (Proc.devRef .tc b) = W14 m ρ c (Proc.devRef .tc b) :=
  StableHlo.after_of_writes_sub _ _ writes.2.2.2.2.2.2.2.2.1 hb

theorem k16 (c : Dev nD) (b : Ref sig .tc) (hb : b ≠ main_v46) :
    W16 m ρ c (Proc.devRef .tc b) = W15 m ρ c (Proc.devRef .tc b) := by
  by_cases h : ∃ w, Pipeline.arrRef spec6 w = b
  · obtain ⟨w, rfl⟩ := h
    fin_cases w
    all_goals first
      | exact absurd rfl hb
      | exact (W16_arr m ρ c _).trans (((dat6 (V15 m ρ) c).arrAt_in _ rfl _).trans (A_eq6 (V15 m ρ) c _))
  · exact W16_of_ne m ρ c b fun w e => h ⟨w, e⟩

theorem k17 (c : Dev nD) (b : Ref sig .tc) (hb : b ∉ L7) :
    W17 m ρ c (Proc.devRef .tc b) = W16 m ρ c (Proc.devRef .tc b) :=
  StableHlo.after_of_writes_sub _ _ writes.2.2.2.2.2.2.2.2.2.1 hb

theorem k18 (c : Dev nD) (b : Ref sig .tc) (hb : b ≠ main_v55) :
    W18 m ρ c (Proc.devRef .tc b) = W17 m ρ c (Proc.devRef .tc b) := by
  by_cases h : ∃ w, Pipeline.arrRef spec7 w = b
  · obtain ⟨w, rfl⟩ := h
    fin_cases w
    all_goals first
      | exact absurd rfl hb
      | exact (W18_arr m ρ c _).trans (((dat7 (V17 m ρ) c).arrAt_in _ rfl _).trans (A_eq7 (V17 m ρ) c _))
  · exact W18_of_ne m ρ c b fun w e => h ⟨w, e⟩

theorem k19 (c : Dev nD) (b : Ref sig .tc) (hb : b ∉ [main_v56]) :
    W19 m ρ c (Proc.devRef .tc b) = W18 m ρ c (Proc.devRef .tc b) :=
  StableHlo.after_of_writes_sub _ _ writes.2.2.2.2.2.2.2.2.2.2 hb

macro "walk" : tactic => `(tactic| repeat (first
  | rw [k19 _ _ _ _ (by decide)] | rw [k18 _ _ _ _ (by decide)] | rw [k17 _ _ _ _ (by decide)] | rw [k16 _ _ _ _ (by decide)]
  | rw [k15 _ _ _ _ (by decide)] | rw [k14 _ _ _ _ (by decide)] | rw [k13 _ _ _ _ (by decide)] | rw [k12 _ _ _ _ (by decide)]
  | rw [k11 _ _ _ _ (by decide)] | rw [k10 _ _ _ _ (by decide)] | rw [k9 _ _ _ _ (by decide)] | rw [k8 _ _ _ _ (by decide)]
  | rw [k7 _ _ _ _ (by decide)] | rw [k6 _ _ _ _ (by decide)] | rw [k5 _ _ _ _ (by decide)] | rw [k4 _ _ _ _ (by decide)]
  | rw [k3 _ _ _ _ (by decide)] | rw [k2 _ _ _ _ (by decide)] | rw [k1 _ _ _ _ (by decide)]))

theorem narrow2 (V : Valuation τ sig (Elt Ideal)) (p : Fin 1601536) (d : Fin 128) :
    (StableHlo.after (hostOps2_1 (F := Ideal)) V (Proc.devRef .tc main_v35) : S1601536x128.Idx → EReal) (ix2 p d)
      = (V (Proc.devRef .tc main_v34) : S1601536x128.Idx → EReal) (ix2 p d) := by
  after_results
  all_goals rfl

theorem narrow4 (V : Valuation τ sig (Elt Ideal)) (p : Fin 1601536) (d : Fin 128) :
    (StableHlo.after (hostOps4_1 (F := Ideal)) V (Proc.devRef .tc main_v40) : S1601536x128.Idx → EReal) (ix2 p d)
      = (V (Proc.devRef .tc main_v39) : S1601536x128.Idx → EReal) (ix2 p d) := by
  after_results
  all_goals rfl

theorem narrow6 (V : Valuation τ sig (Elt Ideal)) (p : Fin 1601536) (d : Fin 128) :
    (StableHlo.after (hostOps6_1 (F := Ideal)) V (Proc.devRef .tc main_v45) : S1601536x128.Idx → EReal) (ix2 p d)
      = (V (Proc.devRef .tc main_v44) : S1601536x128.Idx → EReal) (ix2 p d) := by
  after_results
  all_goals rfl

abbrev aXu (c : Dev nD) : Fin 50000 → Fin 128 → EReal := fun r d => (m ((c : Thread nD τ).loc main_arg0) : S50000x128.Idx → EReal) (ix2 r d)
abbrev aXi (c : Dev nD) : Fin 50000 → Fin 128 → EReal := fun r d => (m ((c : Thread nD τ).loc main_arg1) : S50000x128.Idx → EReal) (ix2 r d)
abbrev aW0ul (c : Dev nD) : Fin 128 → Fin 128 → EReal := fun k j => (m ((c : Thread nD τ).loc main_arg2) : S128x128.Idx → EReal) (ix2 k j)
abbrev aW0ur (c : Dev nD) : Fin 128 → Fin 128 → EReal := fun k j => (m ((c : Thread nD τ).loc main_arg3) : S128x128.Idx → EReal) (ix2 k j)
abbrev ab0u (c : Dev nD) : Fin 128 → EReal := fun j => (m ((c : Thread nD τ).loc main_arg4) : S128.Idx → EReal) (ix1 j)
abbrev aW0il (c : Dev nD) : Fin 128 → Fin 128 → EReal := fun k j => (m ((c : Thread nD τ).loc main_arg5) : S128x128.Idx → EReal) (ix2 k j)
abbrev aW0ir (c : Dev nD) : Fin 128 → Fin 128 → EReal := fun k j => (m ((c : Thread nD τ).loc main_arg6) : S128x128.Idx → EReal) (ix2 k j)
abbrev ab0i (c : Dev nD) : Fin 128 → EReal := fun j => (m ((c : Thread nD τ).loc main_arg7) : S128.Idx → EReal) (ix1 j)
abbrev aW1il (c : Dev nD) : Fin 128 → Fin 128 → EReal := fun k j => (m ((c : Thread nD τ).loc main_arg11) : S128x128.Idx → EReal) (ix2 k j)
abbrev aW1ir (c : Dev nD) : Fin 128 → Fin 128 → EReal := fun k j => (m ((c : Thread nD τ).loc main_arg12) : S128x128.Idx → EReal) (ix2 k j)
abbrev ab1i (c : Dev nD) : Fin 128 → EReal := fun j => (m ((c : Thread nD τ).loc main_arg13) : S128.Idx → EReal) (ix1 j)
abbrev aWo (c : Dev nD) : Fin 128 → Fin 64 → EReal := fun k o => (m ((c : Thread nD τ).loc main_arg14) : S128x64.Idx → EReal) (ix2 k o)
abbrev abo (c : Dev nD) : Fin 64 → EReal := fun o => (m ((c : Thread nD τ).loc main_arg15) : S64.Idx → EReal) (ix1 o)
abbrev aEu (c : Dev nD) : Fin 2 → Fin 1600000 → BitVec 32 := fun a e => (m ((c : Thread nD τ).loc main_arg16) : S2x1600000.Idx → BitVec 32) (ix2 a e)
abbrev aEi (c : Dev nD) : Fin 2 → Fin 1600000 → BitVec 32 := fun a e => (m ((c : Thread nD τ).loc main_arg17) : S2x1600000.Idx → BitVec 32) (ix2 a e)

abbrev hu (c : Dev nD) : Fin 50000 → Fin 128 → EReal :=
  Spec.combine (Spec.kSum (aXi m c) (aEi m c 0) (aEi m c 1)) (Spec.kCnt (aEi m c 1)) (aXu m c) (aW0il m c) (aW0ir m c) (ab0i m c)

abbrev hi (c : Dev nD) : Fin 50000 → Fin 128 → EReal :=
  Spec.combine (Spec.kSum (aXu m c) (aEu m c 0) (aEu m c 1)) (Spec.kCnt (aEu m c 1)) (aXi m c) (aW0ul m c) (aW0ur m c) (ab0u m c)

/-- Regions 0 and 1 count, per node and half, the padded targets of the two edge lists. -/
theorem v32_2 (c : Dev nD) (h : Fin 2) (r : Fin 50000) (l : Fin 128) :
    (W2 m ρ c (Proc.devRef .tc main_v32) : S2x50000x128.Idx → EReal) (ix3 h r l) = Spec.kCnt (aEi m c 1) h r l := by
  rw [show (W2 m ρ c (Proc.devRef .tc main_v32) : S2x50000x128.Idx → EReal) = (dat0 (V1 m ρ) c).arrAt 1 cfg0.N from W2_arr m ρ c 1, CntArr0.arr]
  exact congrArg (fun f => Spec.cntHalf f h r) (funext fun p => KHost.flat_dst_i2u (W0 m ρ c) p)

theorem v33_3 (c : Dev nD) (h : Fin 2) (r : Fin 50000) (l : Fin 128) :
    (W3 m ρ c (Proc.devRef .tc main_v33) : S2x50000x128.Idx → EReal) (ix3 h r l) = Spec.kCnt (aEu m c 1) h r l := by
  rw [show (W3 m ρ c (Proc.devRef .tc main_v33) : S2x50000x128.Idx → EReal) = (dat1 (V2 m ρ) c).arrAt 1 cfg1.N from W3_arr m ρ c 1, CntArr1.arr]
  exact congrArg (fun f => Spec.cntHalf f h r) (funext fun p => by dsimp only [V2]; walk; exact KHost.flat_dst_u2i (W0 m ρ c) p)

/-- The rows read through the padded sources; at the extended reals narrowing changes nothing. -/
theorem v35_5 (c : Dev nD) (p : Fin 1601536) (d : Fin 128) :
    (W5 m ρ c (Proc.devRef .tc main_v35) : S1601536x128.Idx → EReal) (ix2 p d)
      = Spec.takeRow (aXi m c) (Spec.flat (aEi m c 0) 0#32 p) d := by
  exact (narrow2 (W4 m ρ c) p d).trans ((KHost.take _ (.head _) (W3 m ρ c) p d).trans
    (congrArg₂ (Spec.takeRow · · d) (funext fun r => funext fun d => by walk; all_goals rfl) (by walk; exact KHost.flat_src_i2u (W0 m ρ c) p)))

theorem v36_6 (c : Dev nD) (h : Fin 2) (r : Fin 50000) (d : Fin 128) :
    (W6 m ρ c (Proc.devRef .tc main_v36) : S2x50000x128.Idx → EReal) (ix3 h r d) = Spec.kSum (aXi m c) (aEi m c 0) (aEi m c 1) h r d := by
  rw [show (W6 m ρ c (Proc.devRef .tc main_v36) : S2x50000x128.Idx → EReal) = (dat2 (V5 m ρ) c).arrAt 2 cfg2.N from W6_arr m ρ c 2, SumArr2.arr]
  exact congrArg₂ (fun f g => Spec.sumHalf f g h r d) (funext fun p => by dsimp only [V5]; walk; exact KHost.flat_dst_i2u (W0 m ρ c) p)
    (funext fun p => funext fun d => v35_5 m ρ c p d)

theorem e3_0 (c : Dev nD) : (fun h r k => (V7 m ρ c (Pipeline.arrRef spec3 0) : S2x50000x128.Idx → EReal) (ix3 h r k)) = Spec.kSum (aXi m c) (aEi m c 0) (aEi m c 1) := by
  funext h r k
  dsimp only [V7]
  walk
  exact v36_6 m ρ c h r k
theorem e3_1 (c : Dev nD) : (fun h r k => (V7 m ρ c (Pipeline.arrRef spec3 1) : S2x50000x128.Idx → EReal) (ix3 h r k)) = Spec.kCnt (aEi m c 1) := by
  funext h r k
  dsimp only [V7]
  walk
  exact v32_2 m ρ c h r k
theorem e3_2 (c : Dev nD) : (fun r k => (V7 m ρ c (Pipeline.arrRef spec3 2) : S50000x128.Idx → EReal) (ix2 r k)) = aXu m c := by
  funext r k
  dsimp only [V7]
  walk
  all_goals rfl
theorem e3_3 (c : Dev nD) : (fun k j => (V7 m ρ c (Pipeline.arrRef spec3 3) : S128x128.Idx → EReal) (ix2 k j)) = aW0il m c := by
  funext k j
  dsimp only [V7]
  walk
  all_goals rfl
theorem e3_4 (c : Dev nD) : (fun k j => (V7 m ρ c (Pipeline.arrRef spec3 4) : S128x128.Idx → EReal) (ix2 k j)) = aW0ir m c := by
  funext k j
  dsimp only [V7]
  walk
  all_goals rfl
theorem e3_5 (c : Dev nD) : (fun j => (V7 m ρ c (Pipeline.arrRef spec3 5) : S1x128.Idx → EReal) (ix2 0 j)) = ab0i m c := by
  funext j
  dsimp only [V7]
  refine (KHostPads.reshape_v37 (W6 m ρ c) j).trans ?_
  walk
  all_goals rfl

/-- Region 3 is the dense step on region 2's sums and region 0's counts: the first layer's user features. -/
theorem v38_8 (c : Dev nD) (r : Fin 50000) (j : Fin 128) :
    (W8 m ρ c (Proc.devRef .tc main_v38) : S50000x128.Idx → EReal) (ix2 r j) = hu m c r j := by
  rw [show (W8 m ρ c (Proc.devRef .tc main_v38) : S50000x128.Idx → EReal) = (dat3 (V7 m ρ) c).arrAt 6 cfg3.N from W8_arr m ρ c 6, Combine3.arr,
    e3_0, e3_1, e3_2, e3_3, e3_4, e3_5]

theorem v40_10 (c : Dev nD) (p : Fin 1601536) (d : Fin 128) :
    (W10 m ρ c (Proc.devRef .tc main_v40) : S1601536x128.Idx → EReal) (ix2 p d)
      = Spec.takeRow (aXu m c) (Spec.flat (aEu m c 0) 0#32 p) d := by
  exact (narrow4 (W9 m ρ c) p d).trans ((KHost.take _ (.tail _ (.head _)) (W8 m ρ c) p d).trans
    (congrArg₂ (Spec.takeRow · · d) (funext fun r => funext fun d => by walk; all_goals rfl) (by walk; exact KHost.flat_src_u2i (W0 m ρ c) p)))

theorem v41_11 (c : Dev nD) (h : Fin 2) (r : Fin 50000) (d : Fin 128) :
    (W11 m ρ c (Proc.devRef .tc main_v41) : S2x50000x128.Idx → EReal) (ix3 h r d) = Spec.kSum (aXu m c) (aEu m c 0) (aEu m c 1) h r d := by
  rw [show (W11 m ρ c (Proc.devRef .tc main_v41) : S2x50000x128.Idx → EReal) = (dat4 (V10 m ρ) c).arrAt 2 cfg4.N from W11_arr m ρ c 2, SumArr4.arr]
  exact congrArg₂ (fun f g => Spec.sumHalf f g h r d) (funext fun p => by dsimp only [V10]; walk; exact KHost.flat_dst_u2i (W0 m ρ c) p)
    (funext fun p => funext fun d => v40_10 m ρ c p d)

theorem e5_0 (c : Dev nD) : (fun h r k => (V12 m ρ c (Pipeline.arrRef spec5 0) : S2x50000x128.Idx → EReal) (ix3 h r k)) = Spec.kSum (aXu m c) (aEu m c 0) (aEu m c 1) := by
  funext h r k
  dsimp only [V12]
  walk
  exact v41_11 m ρ c h r k
theorem e5_1 (c : Dev nD) : (fun h r k => (V12 m ρ c (Pipeline.arrRef spec5 1) : S2x50000x128.Idx → EReal) (ix3 h r k)) = Spec.kCnt (aEu m c 1) := by
  funext h r k
  dsimp only [V12]
  walk
  exact v33_3 m ρ c h r k
theorem e5_2 (c : Dev nD) : (fun r k => (V12 m ρ c (Pipeline.arrRef spec5 2) : S50000x128.Idx → EReal) (ix2 r k)) = aXi m c := by
  funext r k
  dsimp only [V12]
  walk
  all_goals rfl
theorem e5_3 (c : Dev nD) : (fun k j => (V12 m ρ c (Pipeline.arrRef spec5 3) : S128x128.Idx → EReal) (ix2 k j)) = aW0ul m c := by
  funext k j
  dsimp only [V12]
  walk
  all_goals rfl
theorem e5_4 (c : Dev nD) : (fun k j => (V12 m ρ c (Pipeline.arrRef spec5 4) : S128x128.Idx → EReal) (ix2 k j)) = aW0ur m c := by
  funext k j
  dsimp only [V12]
  walk
  all_goals rfl
theorem e5_5 (c : Dev nD) : (fun j => (V12 m ρ c (Pipeline.arrRef spec5 5) : S1x128.Idx → EReal) (ix2 0 j)) = ab0u m c := by
  funext j
  dsimp only [V12]
  refine (KHostPads.reshape_v42 (W11 m ρ c) j).trans ?_
  walk
  all_goals rfl

theorem v43_13 (c : Dev nD) (r : Fin 50000) (j : Fin 128) :
    (W13 m ρ c (Proc.devRef .tc main_v43) : S50000x128.Idx → EReal) (ix2 r j) = hi m c r j := by
  rw [show (W13 m ρ c (Proc.devRef .tc main_v43) : S50000x128.Idx → EReal) = (dat5 (V12 m ρ) c).arrAt 6 cfg5.N from W13_arr m ρ c 6, Combine5.arr,
    e5_0, e5_1, e5_2, e5_3, e5_4, e5_5]

theorem v45_15 (c : Dev nD) (p : Fin 1601536) (d : Fin 128) :
    (W15 m ρ c (Proc.devRef .tc main_v45) : S1601536x128.Idx → EReal) (ix2 p d)
      = Spec.takeRow (hi m c) (Spec.flat (aEi m c 0) 0#32 p) d := by
  exact (narrow6 (W14 m ρ c) p d).trans ((KHost.take _ (.tail _ (.tail _ (.head _))) (W13 m ρ c) p d).trans
    (congrArg₂ (Spec.takeRow · · d) (funext fun r => funext fun d => v43_13 m ρ c r d) (by walk; exact KHost.flat_src_i2u (W0 m ρ c) p)))

theorem v46_16 (c : Dev nD) (h : Fin 2) (r : Fin 50000) (d : Fin 128) :
    (W16 m ρ c (Proc.devRef .tc main_v46) : S2x50000x128.Idx → EReal) (ix3 h r d) = Spec.kSum (hi m c) (aEi m c 0) (aEi m c 1) h r d := by
  rw [show (W16 m ρ c (Proc.devRef .tc main_v46) : S2x50000x128.Idx → EReal) = (dat6 (V15 m ρ) c).arrAt 2 cfg6.N from W16_arr m ρ c 2, SumArr6.arr]
  exact congrArg₂ (fun f g => Spec.sumHalf f g h r d) (funext fun p => by dsimp only [V15]; walk; exact KHost.flat_dst_i2u (W0 m ρ c) p)
    (funext fun p => funext fun d => v45_15 m ρ c p d)

theorem e7_0 (c : Dev nD) : (fun h r k => (V17 m ρ c (Pipeline.arrRef spec7 0) : S2x50000x128.Idx → EReal) (ix3 h r k)) = Spec.kSum (hi m c) (aEi m c 0) (aEi m c 1) := by
  funext h r k
  dsimp only [V17]
  walk
  exact v46_16 m ρ c h r k
theorem e7_1 (c : Dev nD) : (fun h r k => (V17 m ρ c (Pipeline.arrRef spec7 1) : S2x50000x128.Idx → EReal) (ix3 h r k)) = Spec.kCnt (aEi m c 1) := by
  funext h r k
  dsimp only [V17]
  walk
  exact v32_2 m ρ c h r k
theorem e7_2 (c : Dev nD) : (fun r k => (V17 m ρ c (Pipeline.arrRef spec7 2) : S50000x128.Idx → EReal) (ix2 r k)) = hu m c := by
  funext r k
  dsimp only [V17]
  walk
  exact v38_8 m ρ c r k
theorem e7_3 (c : Dev nD) : (fun k j => (V17 m ρ c (Pipeline.arrRef spec7 3) : S128x128.Idx → EReal) (ix2 k j)) = aW1il m c := by
  funext k j
  dsimp only [V17]
  walk
  all_goals rfl
theorem e7_4 (c : Dev nD) : (fun k j => (V17 m ρ c (Pipeline.arrRef spec7 4) : S128x128.Idx → EReal) (ix2 k j)) = aW1ir m c := by
  funext k j
  dsimp only [V17]
  walk
  all_goals rfl
theorem e7_5 (c : Dev nD) : (fun j => (V17 m ρ c (Pipeline.arrRef spec7 5) : S1x128.Idx → EReal) (ix2 0 j)) = ab1i m c := by
  funext j
  dsimp only [V17]
  refine (KHostPads.reshape_v47 (W16 m ρ c) j).trans ?_
  walk
  all_goals rfl
theorem e7_6 (c : Dev nD) : (fun k o => (V17 m ρ c (Pipeline.arrRef spec7 6) : S128x128.Idx → EReal) (ix2 k o)) = Spec.padW (aWo m c) := by
  funext k o
  dsimp only [V17]
  refine (KHostPads.padW_v50 (W16 m ρ c) k o).trans (congrArg (fun f => Spec.padW f k o) (funext fun k => funext fun o => ?_))
  walk
  all_goals rfl
theorem e7_7 (c : Dev nD) : (fun o => (V17 m ρ c (Pipeline.arrRef spec7 7) : S1x128.Idx → EReal) (ix2 0 o)) = Spec.padB (abo m c) := by
  funext o
  dsimp only [V17]
  refine (KHostPads.padB_v54 (W16 m ρ c) o).trans (congrArg (fun f => Spec.padB f o) (funext fun o => ?_))
  walk
  all_goals rfl

theorem v55_18 (c : Dev nD) (r : Fin 50000) (o : Fin 128) :
    (W18 m ρ c (Proc.devRef .tc main_v55) : S50000x128.Idx → EReal) (ix2 r o)
      = Spec.head (Spec.kSum (hi m c) (aEi m c 0) (aEi m c 1)) (Spec.kCnt (aEi m c 1)) (hu m c) (aW1il m c) (aW1ir m c) (ab1i m c)
          (Spec.padW (aWo m c)) (Spec.padB (abo m c)) r o := by
  rw [show (W18 m ρ c (Proc.devRef .tc main_v55) : S50000x128.Idx → EReal) = (dat7 (V17 m ρ) c).arrAt 8 cfg7.N from W18_arr m ρ c 8, Head7.arr,
    e7_0, e7_1, e7_2, e7_3, e7_4, e7_5, e7_6, e7_7]

/-- The result is the network as the kernel arranges it, of the arguments as launched. -/
theorem result (c : Dev nD) (r : Fin 50000) (o : Fin 64) :
    (Gen.W19 (F := Ideal) m ρ c (Proc.devRef .tc main_v56) : S50000x64.Idx → EReal) (ix2 r o)
      = Cert.Spec.kout
          (fun r d => (m ((c : Thread nD τ).loc main_arg0) : S50000x128.Idx → EReal) (ix2 r d))
          (fun r d => (m ((c : Thread nD τ).loc main_arg1) : S50000x128.Idx → EReal) (ix2 r d))
          (fun k j => (m ((c : Thread nD τ).loc main_arg2) : S128x128.Idx → EReal) (ix2 k j))
          (fun k j => (m ((c : Thread nD τ).loc main_arg3) : S128x128.Idx → EReal) (ix2 k j))
          (fun j => (m ((c : Thread nD τ).loc main_arg4) : S128.Idx → EReal) (ix1 j))
          (fun k j => (m ((c : Thread nD τ).loc main_arg5) : S128x128.Idx → EReal) (ix2 k j))
          (fun k j => (m ((c : Thread nD τ).loc main_arg6) : S128x128.Idx → EReal) (ix2 k j))
          (fun j => (m ((c : Thread nD τ).loc main_arg7) : S128.Idx → EReal) (ix1 j))
          (fun k j => (m ((c : Thread nD τ).loc main_arg11) : S128x128.Idx → EReal) (ix2 k j))
          (fun k j => (m ((c : Thread nD τ).loc main_arg12) : S128x128.Idx → EReal) (ix2 k j))
          (fun j => (m ((c : Thread nD τ).loc main_arg13) : S128.Idx → EReal) (ix1 j))
          (fun k o => (m ((c : Thread nD τ).loc main_arg14) : S128x64.Idx → EReal) (ix2 k o))
          (fun o => (m ((c : Thread nD τ).loc main_arg15) : S64.Idx → EReal) (ix1 o))
          (fun a e => (m ((c : Thread nD τ).loc main_arg16) : S2x1600000.Idx → BitVec 32) (ix2 a e))
          (fun a e => (m ((c : Thread nD τ).loc main_arg17) : S2x1600000.Idx → BitVec 32) (ix2 a e))
          r o := by
  refine (KHostPads.slice_v56 (W18 m ρ c) r o).trans ?_
  exact v55_18 m ρ c r ⟨o.val, by omega⟩

end Cert.KernelIdeal.KChain

end
-- ==== Proof.lean ====
import proofs.«420317_j38706245272172_4_alg».proof.Defs
import proofs.«420317_j38706245272172_4_alg».proof.Proof.Gen.Kernel
import proofs.«420317_j38706245272172_4_alg».proof.Proof.Gen.Kernel.Skeleton
import proofs.«420317_j38706245272172_4_alg».proof.Proof.Gen.Kernel.Loops
import proofs.«420317_j38706245272172_4_alg».proof.Proof.Gen.Kernel.Launch
import proofs.«420317_j38706245272172_4_alg».proof.Proof.Gen.Kernel.Points
import proofs.«420317_j38706245272172_4_alg».proof.Proof.Gen.Kernel.Frame
import proofs.«420317_j38706245272172_4_alg».proof.Proof.Gen.KernelIdeal
import proofs.«420317_j38706245272172_4_alg».proof.Proof.Gen.KernelIdeal.Skeleton
import proofs.«420317_j38706245272172_4_alg».proof.Proof.Gen.KernelIdeal.Loops
import proofs.«420317_j38706245272172_4_alg».proof.Proof.Gen.KernelIdeal.Launch
import proofs.«420317_j38706245272172_4_alg».proof.Proof.Gen.KernelIdeal.Points
import proofs.«420317_j38706245272172_4_alg».proof.Proof.Gen.KernelIdeal.Frame
import proofs.«420317_j38706245272172_4_alg».proof.Proof.Gen.ReferenceIdeal
import proofs.«420317_j38706245272172_4_alg».proof.Proof.Gen.Pre_finite_inputs
import proofs.«420317_j38706245272172_4_alg».proof.Proof.Spec
import proofs.«420317_j38706245272172_4_alg».proof.Proof.Bridge
import proofs.«420317_j38706245272172_4_alg».proof.Proof.PreDecode
import proofs.«420317_j38706245272172_4_alg».proof.Proof.KRun
import proofs.«420317_j38706245272172_4_alg».proof.Proof.RefRun
import proofs.«420317_j38706245272172_4_alg».proof.Proof.RefResult
import proofs.«420317_j38706245272172_4_alg».proof.Proof.KChain
import Idealize.ShloMosaic.Lib.ValueIdx
import Idealize.ShloMosaic.Adequacy
import Idealize.ShloMosaic.Init

noncomputable section

namespace Cert.Proof

open Idealize.ShloMosaic Idealize.ShloMosaic.ValueIdx Idealize.SL.Sem

-- Both results are the network of the shared arguments: the reference's by reading its run, the kernel's because its
-- arrangement (padded half sums and counts) is the network once every edge source names a node.
theorem algebraic : Cert.algebraic_KernelIdeal_ReferenceIdeal := by
  intro m ρ m' ρ' hpre hagree
  have at_rc : ∀ (c : Dev Cert.KernelIdeal.nD) (r : Fin 50000) (o : Fin 64),
      (Cert.ReferenceIdeal.RefRun.res (F := Ideal) m' c : Cert.ReferenceIdeal.S50000x64.Idx → EReal) (ix2 r o)
        = (Cert.KernelIdeal.Gen.W19 (F := Ideal) m ρ c (Proc.devRef .tc Cert.KernelIdeal.main_v56) : Cert.KernelIdeal.S50000x64.Idx → EReal) (ix2 r o) :=
    fun c r o => by
      obtain ⟨h0, h1, h2, h3, h4, h5, h6, h7, h8, h9, h10, h11, h12, h13, h14, h15, h16, h17⟩ := hagree c
      obtain ⟨hu, hi⟩ := Cert.PreDecode.src_ok m hpre c
      rw [Cert.ReferenceIdeal.RefResult.result m' c r o, Cert.KernelIdeal.KChain.result m ρ c r o,
        h0, h1, h2, h3, h4, h5, h6, h7, h11, h12, h13, h14, h15, h16, h17]
      exact (congrFun (congrFun (Cert.Spec.kout_eq_out _ _ _ _ _ _ _ _ _ _ _ _ _ _ _ hu hi) r) o).symm
  exact ⟨fun c => Cert.KernelIdeal.Gen.W19 (F := Ideal) m ρ c (Proc.devRef .tc Cert.KernelIdeal.main_v56), Cert.KernelIdeal.KRun.run m ρ,
    (θ_run Cert.ReferenceIdeal.defs _ _).mono
      (fun _ h c => ⟨(h c).1.trans (funext fun (i : Cert.ReferenceIdeal.S50000x64.Idx) => by
        rw [eq_ix2 i]; exact at_rc c (i 0) (i 1)), (h c).2⟩)
      (Cert.ReferenceIdeal.RefRun.run (F := Ideal) m' ρ')⟩

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2) (Cert.ReferenceIdeal.RefRun.run (F := Ideal) m ρ),
    trivial,
    algebraic⟩

end Cert.Proof

end
